-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S6x8192x16 : Shape := ⟨3, ![6, 8192, 16]⟩
abbrev S8x8 : Shape := ⟨2, ![8, 8]⟩
abbrev S8 : Shape := ⟨1, ![8]⟩
abbrev S8192 : Shape := ⟨1, ![8192]⟩
abbrev S5x8192 : Shape := ⟨2, ![5, 8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S6x8192x16 : S_.BroadcastsInDim S6x8192x16 (![] : Fin 0 → Fin S6x8192x16.rank)
  reducesTo_S6x8192x16_S_d0_1_2 : S6x8192x16.ReducesTo [0, 1, 2] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S8192 : S_.BroadcastsInDim S8192 (![] : Fin 0 → Fin S8192.rank)
  reducesTo_S8192_S_d0 : S8192.ReducesTo [0] S_
  bcast_S_S5x8192 : S_.BroadcastsInDim S5x8192 (![] : Fin 0 → Fin S5x8192.rank)
  reducesTo_S5x8192_S_d0_1 : S5x8192.ReducesTo [0, 1] S_

variable [Facts]

def fn_part2 {F : FTy → Type} [FloatOps F] (main_arg6 : IVec S5x8192 32) (main_arg7 : IVec S5x8192 32) (main_v32 : IVec S_ 1) (main_c_12 : IVec S_ 32) : IVec S_ 1 :=
  let main_v33 : IVec S5x8192 32 := broadcastInDim S5x8192 ![] bcast_S_S5x8192 main_c_12
  let main_v34 : IVec S5x8192 1 := cmpi .sge main_arg6 main_v33
  let main_c_13 : IVec S_ 32 := constantI S_ 32 8192#32
  let main_v35 : IVec S5x8192 32 := broadcastInDim S5x8192 ![] bcast_S_S5x8192 main_c_13
  let main_v36 : IVec S5x8192 1 := cmpi .slt main_arg6 main_v35
  let main_v37 : IVec S5x8192 1 := andi main_v34 main_v36
  let main_c_14 : IVec S_ 1 := constantI S_ 1 1#1
  let main_v38 : IVec S_ 1 := (fun x v => Host.reduce IntOp.andi x v reducesTo_S5x8192_S_d0_1 h_S_) main_v37 main_c_14
  let main_v39 : IVec S_ 1 := andi main_v32 main_v38
  let main_c_15 : IVec S_ 32 := constantI S_ 32 0#32
  let main_v40 : IVec S5x8192 32 := broadcastInDim S5x8192 ![] bcast_S_S5x8192 main_c_15
  let main_v41 : IVec S5x8192 1 := cmpi .sge main_arg7 main_v40
  let main_c_16 : IVec S_ 32 := constantI S_ 32 8192#32
  let main_v42 : IVec S5x8192 32 := broadcastInDim S5x8192 ![] bcast_S_S5x8192 main_c_16
  let main_v43 : IVec S5x8192 1 := cmpi .slt main_arg7 main_v42
  let main_v44 : IVec S5x8192 1 := andi main_v41 main_v43
  let main_c_17 : IVec S_ 1 := constantI S_ 1 1#1
  let main_v45 : IVec S_ 1 := (fun x v => Host.reduce IntOp.andi x v reducesTo_S5x8192_S_d0_1 h_S_) main_v44 main_c_17
  let main_v46 : IVec S_ 1 := andi main_v39 main_v45
  main_v46

def fn_part1 {F : FTy → Type} [FloatOps F] (main_arg4 : IVec S8192 32) (main_arg5 : IVec S8192 32) (main_arg6 : IVec S5x8192 32) (main_arg7 : IVec S5x8192 32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg4 main_v19
  let main_c_7 : IVec S_ 32 := constantI S_ 32 1024#32
  let main_v21 : IVec S8192 32 := broadcastInDim S8192 ![] bcast_S_S8192 main_c_7
  let main_v22 : IVec S8192 1 := cmpi .slt main_arg4 main_v21
  let main_v23 : IVec S8192 1 := andi main_v20 main_v22
  let main_c_8 : IVec S_ 1 := constantI S_ 1 1#1
  let main_v24 : IVec S_ 1 := (fun x v => Host.reduce IntOp.andi x v reducesTo_S8192_S_d0 h_S_) main_v23 main_c_8
  let main_v25 : IVec S_ 1 := andi main_v18 main_v24
  let main_c_9 : IVec S_ 32 := constantI S_ 32 0#32
  let main_v26 : IVec S8192 32 := broadcastInDim S8192 ![] bcast_S_S8192 main_c_9
  let main_v27 : IVec S8192 1 := cmpi .sge main_arg5 main_v26
  let main_c_10 : IVec S_ 32 := constantI S_ 32 1024#32
  let main_v28 : IVec S8192 32 := broadcastInDim S8192 ![] bcast_S_S8192 main_c_10
  let main_v29 : IVec S8192 1 := cmpi .slt main_arg5 main_v28
  let main_v30 : IVec S8192 1 := andi main_v27 main_v29
  let main_c_11 : IVec S_ 1 := constantI S_ 1 1#1
  let main_v31 : IVec S_ 1 := (fun x v => Host.reduce IntOp.andi x v reducesTo_S8192_S_d0 h_S_) main_v30 main_c_11
  let main_v32 : IVec S_ 1 := andi main_v25 main_v31
  let main_c_12 : IVec S_ 32 := constantI S_ 32 0#32
  fn_part2 (F := F) main_arg6 main_arg7 main_v32 main_c_12

def fn {F : FTy → Type} [FloatOps F] (main_arg0 : FVec F S4096x1024 .f32) (main_arg1 : FVec F S6x8192x16 .f32) (main_arg2 : FVec F S8x8 .f32) (main_arg3 : FVec F S8 .f32) (main_arg4 : IVec S8192 32) (main_arg5 : IVec S8192 32) (main_arg6 : IVec S5x8192 32) (main_arg7 : IVec S5x8192 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S6x8192x16 .f32 := Host.absf main_arg1
  let main_cst_0 : FVec F S_ .f32 := constant S_ .f32 0x7F800000#32
  let main_v5 : FVec F S6x8192x16 .f32 := broadcastInDim S6x8192x16 ![] bcast_S_S6x8192x16 main_cst_0
  let main_v6 : IVec S6x8192x16 1 := cmpf .olt main_v4 main_v5
  let main_c_1 : IVec S_ 1 := constantI S_ 1 1#1
  let main_v7 : IVec S_ 1 := (fun x v => Host.reduce IntOp.andi x v reducesTo_S6x8192x16_S_d0_1_2 h_S_) main_v6 main_c_1
  let main_v8 : IVec S_ 1 := andi main_v3 main_v7
  let main_v9 : FVec F S8x8 .f32 := Host.absf main_arg2
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_v13 main_v16
-- ==== Kernel.lean ====
abbrev S4096x1024 : Shape := ⟨2, ![4096, 1024]⟩
abbrev S6x8192x16 : Shape := ⟨3, ![6, 8192, 16]⟩
abbrev S8x8 : Shape := ⟨2, ![8, 8]⟩
abbrev S8 : Shape := ⟨1, ![8]⟩
abbrev S8192 : Shape := ⟨1, ![8192]⟩
abbrev S5x8192 : Shape := ⟨2, ![5, 8192]⟩
abbrev S16x4 : Shape := ⟨2, ![16, 4]⟩
abbrev S1024x4096 : Shape := ⟨2, ![1024, 4096]⟩
abbrev S_ : Shape := ⟨0, ![]⟩
abbrev S1x8192x16 : Shape := ⟨3, ![1, 8192, 16]⟩
abbrev S8192x16 : Shape := ⟨2, ![8192, 16]⟩
abbrev S8192x1 : Shape := ⟨2, ![8192, 1]⟩
abbrev S8192x4 : Shape := ⟨2, ![8192, 4]⟩
abbrev S8192x4096 : Shape := ⟨2, ![8192, 4096]⟩
abbrev S1024x512 : Shape := ⟨2, ![1024, 512]⟩
abbrev S1024x1 : Shape := ⟨2, ![1024, 1]⟩
abbrev S1x8192 : Shape := ⟨2, ![1, 8192]⟩
abbrev S8x1 : Shape := ⟨2, ![8, 1]⟩
abbrev S8x4096 : Shape := ⟨2, ![8, 4096]⟩
abbrev S8192x256 : Shape := ⟨2, ![8192, 256]⟩
abbrev S8x256 : Shape := ⟨2, ![8, 256]⟩
abbrev S1024x256 : Shape := ⟨2, ![1024, 256]⟩
abbrev S256 : Shape := ⟨1, ![256]⟩
abbrev S1x256 : Shape := ⟨2, ![1, 256]⟩
abbrev S4096x8 : Shape := ⟨2, ![4096, 8]⟩

abbrev nBuf : Space → Nat
  | .hbm => 193
  | .vmem => 90
  | .smem => 0
  | _ => 0

abbrev hbmTy0_0 (i : Nat) : BufTy := match i % 128 with
  | 0 => ⟨S4096x1024, .f32⟩
  | 1 => ⟨S6x8192x16, .f32⟩
  | 2 => ⟨S8x8, .f32⟩
  | 3 => ⟨S8, .f32⟩
  | 4 => ⟨S8192, .i32⟩
  | 5 => ⟨S8192, .i32⟩
  | 6 => ⟨S5x8192, .i32⟩
  | 7 => ⟨S5x8192, .i32⟩
  | 8 => ⟨S16x4, .f32⟩
  | 9 => ⟨S1024x4096, .f32⟩
  | 10 => ⟨S_, .f32⟩
  | 11 => ⟨S1024x4096, .f32⟩
  | 12 => ⟨S1024x4096, .i1⟩
  | 13 => ⟨S1024x4096, .f32⟩
  | 14 => ⟨S1x8192x16, .f32⟩
  | 15 => ⟨S8192x16, .f32⟩
  | 16 => ⟨S_, .f32⟩
  | 17 => ⟨S8192, .f32⟩
  | 18 => ⟨S_, .f32⟩
  | 19 => ⟨S8192, .f32⟩
  | 20 => ⟨S8192, .f32⟩
  | 21 => ⟨S8192x1, .f32⟩
  | 22 => ⟨S8192x16, .f32⟩
  | 23 => ⟨S8192x16, .f32⟩
  | 24 => ⟨S8192x16, .f32⟩
  | 25 => ⟨S_, .f32⟩
  | 26 => ⟨S8192, .f32⟩
  | 27 => ⟨S8192x1, .f32⟩
  | 28 => ⟨S8192x16, .f32⟩
  | 29 => ⟨S8192x16, .f32⟩
  | 30 => ⟨S8192x4, .f32⟩
  | 31 => ⟨S8192x1, .f32⟩
  | 32 => ⟨S8192x1, .f32⟩
  | 33 => ⟨S8192x1, .f32⟩
  | 34 => ⟨S8192x1, .f32⟩
  | 35 => ⟨S8192x1, .i32⟩
  | 36 => ⟨S8192x4096, .f32⟩
  | 37 => ⟨S8192x1, .i32⟩
  | 38 => ⟨S8192x4096, .f32⟩
  | 39 => ⟨S8192x4096, .f32⟩
  | 40 => ⟨S1x8192x16, .f32⟩
  | 41 => ⟨S8192x16, .f32⟩
  | 42 => ⟨S_, .f32⟩
  | 43 => ⟨S8192, .f32⟩
  | 44 => ⟨S_, .f32⟩
  | 45 => ⟨S8192, .f32⟩
  | 46 => ⟨S8192, .f32⟩
  | 47 => ⟨S8192x1, .f32⟩
  | 48 => ⟨S8192x16, .f32⟩
  | 49 => ⟨S8192x16, .f32⟩
  | 50 => ⟨S8192x16, .f32⟩
  | 51 => ⟨S_, .f32⟩
  | 52 => ⟨S8192, .f32⟩
  | 53 => ⟨S8192x1, .f32⟩
  | 54 => ⟨S8192x16, .f32⟩
  | 55 => ⟨S8192x16, .f32⟩
  | 56 => ⟨S8192x4, .f32⟩
  | 57 => ⟨S8192x1, .f32⟩
  | 58 => ⟨S8192x1, .f32⟩
  | 59 => ⟨S8192x1, .f32⟩
  | 60 => ⟨S8192x1, .f32⟩
  | 61 => ⟨S1x8192, .i32⟩
  | 62 => ⟨S8192, .i32⟩
  | 63 => ⟨S8192x1, .i32⟩
  | 64 => ⟨S8192x4096, .f32⟩
  | 65 => ⟨S1x8192, .i32⟩
  | 66 => ⟨S8192, .i32⟩
  | 67 => ⟨S8192x1, .i32⟩
  | 68 => ⟨S8192x4096, .f32⟩
  | 69 => ⟨S8192x4096, .f32⟩
  | 70 => ⟨S1x8192x16, .f32⟩
  | 71 => ⟨S8192x16, .f32⟩
  | 72 => ⟨S_, .f32⟩
  | 73 => ⟨S8192, .f32⟩
  | 74 => ⟨S_, .f32⟩
  | 75 => ⟨S8192, .f32⟩
  | 76 => ⟨S8192, .f32⟩
  | 77 => ⟨S8192x1, .f32⟩
  | 78 => ⟨S8192x16, .f32⟩
  | 79 => ⟨S8192x16, .f32⟩
  | 80 => ⟨S8192x16, .f32⟩
  | 81 => ⟨S_, .f32⟩
  | 82 => ⟨S8192, .f32⟩
  | 83 => ⟨S8192x1, .f32⟩
  | 84 => ⟨S8192x16, .f32⟩
  | 85 => ⟨S8192x16, .f32⟩
  | 86 => ⟨S8192x4, .f32⟩
  | 87 => ⟨S8192x1, .f32⟩
  | 88 => ⟨S8192x1, .f32⟩
  | 89 => ⟨S8192x1, .f32⟩
  | 90 => ⟨S8192x1, .f32⟩
  | 91 => ⟨S1x8192, .i32⟩
  | 92 => ⟨S8192, .i32⟩
  | 93 => ⟨S8192x1, .i32⟩
  | 94 => ⟨S8192x4096, .f32⟩
  | 95 => ⟨S1x8192, .i32⟩
  | 96 => ⟨S8192, .i32⟩
  | 97 => ⟨S8192x1, .i32⟩
  | 98 => ⟨S8192x4096, .f32⟩
  | 99 => ⟨S8192x4096, .f32⟩
  | 100 => ⟨S1x8192x16, .f32⟩
  | 101 => ⟨S8192x16, .f32⟩
  | 102 => ⟨S_, .f32⟩
  | 103 => ⟨S8192, .f32⟩
  | 104 => ⟨S_, .f32⟩
  | 105 => ⟨S8192, .f32⟩
  | 106 => ⟨S8192, .f32⟩
  | 107 => ⟨S8192x1, .f32⟩
  | 108 => ⟨S8192x16, .f32⟩
  | 109 => ⟨S8192x16, .f32⟩
  | 110 => ⟨S8192x16, .f32⟩
  | 111 => ⟨S_, .f32⟩
  | 112 => ⟨S8192, .f32⟩
  | 113 => ⟨S8192x1, .f32⟩
  | 114 => ⟨S8192x16, .f32⟩
  | 115 => ⟨S8192x16, .f32⟩
  | 116 => ⟨S8192x4, .f32⟩
  | 117 => ⟨S8192x1, .f32⟩
  | 118 => ⟨S8192x1, .f32⟩
  | 119 => ⟨S8192x1, .f32⟩
  | 120 => ⟨S8192x1, .f32⟩
  | 121 => ⟨S1x8192, .i32⟩
  | 122 => ⟨S8192, .i32⟩
  | 123 => ⟨S8192x1, .i32⟩
  | 124 => ⟨S8192x4096, .f32⟩
  | 125 => ⟨S1x8192, .i32⟩
  | 126 => ⟨S8192, .i32⟩
  | 127 => ⟨S8192x1, .i32⟩
  | _ => ⟨S4096x1024, .f32⟩

abbrev hbmTy0_1 (i : Nat) : BufTy := match i % 128 with
  | 0 => ⟨S8192x4096, .f32⟩
  | 1 => ⟨S8192x4096, .f32⟩
  | 2 => ⟨S1x8192x16, .f32⟩
  | 3 => ⟨S8192x16, .f32⟩
  | 4 => ⟨S_, .f32⟩
  | 5 => ⟨S8192, .f32⟩
  | 6 => ⟨S_, .f32⟩
  | 7 => ⟨S8192, .f32⟩
  | 8 => ⟨S8192, .f32⟩
  | 9 => ⟨S8192x1, .f32⟩
  | 10 => ⟨S8192x16, .f32⟩
  | 11 => ⟨S8192x16, .f32⟩
  | 12 => ⟨S8192x16, .f32⟩
  | 13 => ⟨S_, .f32⟩
  | 14 => ⟨S8192, .f32⟩
  | 15 => ⟨S8192x1, .f32⟩
  | 16 => ⟨S8192x16, .f32⟩
  | 17 => ⟨S8192x16, .f32⟩
  | 18 => ⟨S8192x4, .f32⟩
  | 19 => ⟨S8192x1, .f32⟩
  | 20 => ⟨S8192x1, .f32⟩
  | 21 => ⟨S8192x1, .f32⟩
  | 22 => ⟨S8192x1, .f32⟩
  | 23 => ⟨S1x8192, .i32⟩
  | 24 => ⟨S8192, .i32⟩
  | 25 => ⟨S8192x1, .i32⟩
  | 26 => ⟨S8192x4096, .f32⟩
  | 27 => ⟨S1x8192, .i32⟩
  | 28 => ⟨S8192, .i32⟩
  | 29 => ⟨S8192x1, .i32⟩
  | 30 => ⟨S8192x4096, .f32⟩
  | 31 => ⟨S8192x4096, .f32⟩
  | 32 => ⟨S1x8192x16, .f32⟩
  | 33 => ⟨S8192x16, .f32⟩
  | 34 => ⟨S_, .f32⟩
  | 35 => ⟨S8192, .f32⟩
  | 36 => ⟨S_, .f32⟩
  | 37 => ⟨S8192, .f32⟩
  | 38 => ⟨S8192, .f32⟩
  | 39 => ⟨S8192x1, .f32⟩
  | 40 => ⟨S8192x16, .f32⟩
  | 41 => ⟨S8192x16, .f32⟩
  | 42 => ⟨S8192x16, .f32⟩
  | 43 => ⟨S_, .f32⟩
  | 44 => ⟨S8192, .f32⟩
  | 45 => ⟨S8192x1, .f32⟩
  | 46 => ⟨S8192x16, .f32⟩
  | 47 => ⟨S8192x16, .f32⟩
  | 48 => ⟨S8192x4, .f32⟩
  | 49 => ⟨S8192x1, .f32⟩
  | 50 => ⟨S8192x1, .f32⟩
  | 51 => ⟨S8192x1, .f32⟩
  | 52 => ⟨S8192x1, .f32⟩
  | 53 => ⟨S1x8192, .i32⟩
  | 54 => ⟨S8192, .i32⟩
  | 55 => ⟨S8192x1, .i32⟩
  | 56 => ⟨S8192x4096, .f32⟩
  | 57 => ⟨S1x8192, .i32⟩
  | 58 => ⟨S8192, .i32⟩
  | 59 => ⟨S8192x1, .i32⟩
  | 60 => ⟨S8192x4096, .f32⟩
  | 61 => ⟨S8192x4096, .f32⟩
  | 62 => ⟨S8x1, .f32⟩
  | 63 => ⟨S8x4096, .f32⟩
  | 64 => ⟨S4096x8, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x1, .f32⟩
  | .local _ .vmem, ⟨33, _⟩ => ⟨S1024x1, .f32⟩
  | .local _ .vmem, ⟨34, _⟩ => ⟨S1024x1, .f32⟩
  | .local _ .vmem, ⟨35, _⟩ => ⟨S1024x1, .f32⟩
  | .local _ .vmem, ⟨36, _⟩ => ⟨S1024x1, .f32⟩
  | .local _ .vmem, ⟨37, _⟩ => ⟨S1024x1, .f32⟩
  | .local _ .vmem, ⟨38, _⟩ => ⟨S1024x1, .f32⟩
  | .local _ .vmem, ⟨39, _⟩ => ⟨S1024x1, .f32⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | .local _ .vmem, ⟨43, _⟩ => ⟨S1024x512, .f32⟩
  | .local _ .vmem, ⟨44, _⟩ => ⟨S1024x512, .f32⟩
  | .local _ .vmem, ⟨45, _⟩ => ⟨S1024x512, .f32⟩
  | .local _ .vmem, ⟨46, _⟩ => ⟨S1024x1, .f32⟩
  | .local _ .vmem, ⟨47, _⟩ => ⟨S1024x1, .f32⟩
  | .local _ .vmem, ⟨48, _⟩ => ⟨S1024x1, .f32⟩
  | .local _ .vmem, ⟨49, _⟩ => ⟨S1024x1, .f32⟩
  | .local _ .vmem, ⟨50, _⟩ => ⟨S1024x1, .f32⟩
  | .local _ .vmem, ⟨51, _⟩ => ⟨S1024x1, .f32⟩
  | .local _ .vmem, ⟨52, _⟩ => ⟨S1024x1, .f32⟩
  | .local _ .vmem, ⟨53, _⟩ => ⟨S1024x1, .f32⟩
  | .local _ .vmem, ⟨54, _⟩ => ⟨S1024x512, .f32⟩
  | .local _ .vmem, ⟨55, _⟩ => ⟨S1024x512, .f32⟩
  | .local _ .vmem, ⟨56, _⟩ => ⟨S1024x512, .f32⟩
  | .local _ .vmem, ⟨57, _⟩ => ⟨S1024x512, .f32⟩
  | .local _ .vmem, ⟨58, _⟩ => ⟨S1024x512, .f32⟩
  | .local _ .vmem, ⟨59, _⟩ => ⟨S1024x512, .f32⟩
  | .local _ .vmem, ⟨60, _⟩ => ⟨S1024x1, .f32⟩
  | .local _ .vmem, ⟨61, _⟩ => ⟨S1024x1, .f32⟩
  | .local _ .vmem, ⟨62, _⟩ => ⟨S1024x1, .f32⟩
  | .local _ .vmem, ⟨63, _⟩ => ⟨S1024x1, .f32⟩
  | .local _ .vmem, ⟨64, _⟩ => ⟨S1024x1, .f32⟩
  | .local _ .vmem, ⟨65, _⟩ => ⟨S1024x1, .f32⟩
  | .local _ .vmem, ⟨66, _⟩ => ⟨S1024x1, .f32⟩
  | .local _ .vmem, ⟨67, _⟩ => ⟨S1024x1, .f32⟩
  | .local _ .vmem, ⟨68, _⟩ => ⟨S1024x512, .f32⟩
  | .local _ .vmem, ⟨69, _⟩ => ⟨S1024x512, .f32⟩
  | .local _ .vmem, ⟨70, _⟩ => ⟨S1024x512, .f32⟩
  | .local _ .vmem, ⟨71, _⟩ => ⟨S1024x512, .f32⟩
  | .local _ .vmem, ⟨72, _⟩ => ⟨S1024x512, .f32⟩
  | .local _ .vmem, ⟨73, _⟩ => ⟨S1024x512, .f32⟩
  | .local _ .vmem, ⟨74, _⟩ => ⟨S1024x1, .f32⟩
  | .local _ .vmem, ⟨75, _⟩ => ⟨S1024x1, .f32⟩
  | .local _ .vmem, ⟨76, _⟩ => ⟨S1024x1, .f32⟩
  | .local _ .vmem, ⟨77, _⟩ => ⟨S1024x1, .f32⟩
  | .local _ .vmem, ⟨78, _⟩ => ⟨S1024x1, .f32⟩
  | .local _ .vmem, ⟨79, _⟩ => ⟨S1024x1, .f32⟩
  | .local _ .vmem, ⟨80, _⟩ => ⟨S1024x1, .f32⟩
  | .local _ .vmem, ⟨81, _⟩ => ⟨S1024x1, .f32⟩
  | .local _ .vmem, ⟨82, _⟩ => ⟨S1024x512, .f32⟩
  | .local _ .vmem, ⟨83, _⟩ => ⟨S1024x512, .f32⟩
  | .local _ .vmem, ⟨84, _⟩ => ⟨S8192x256, .f32⟩
  | .local _ .vmem, ⟨85, _⟩ => ⟨S8192x256, .f32⟩
  | .local _ .vmem, ⟨86, _⟩ => ⟨S8x8, .f32⟩
  | .local _ .vmem, ⟨87, _⟩ => ⟨S8x1, .f32⟩
  | .local _ .vmem, ⟨88, _⟩ => ⟨S8x256, .f32⟩
  | .local _ .vmem, ⟨89, _⟩ => ⟨S8x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_v22 : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call2_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call3_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call4_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call5_v0 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_10 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_12 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_call6_v0 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_call7_v0 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_13 : Ref sig .tc := ⟨.hbm, 132, rfl⟩
abbrev main_v102 : Ref sig .tc := ⟨.hbm, 133, rfl⟩
abbrev main_cst_14 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_15 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_call8_v0 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_call9_v0 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_16 : Ref sig .tc := ⟨.hbm, 162, rfl⟩
abbrev main_v127 : Ref sig .tc := ⟨.hbm, 163, rfl⟩
abbrev main_cst_17 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_18 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_call10_v0 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_call11_v0 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg2_1 : Ref sig .tc := ⟨.vmem, 75, rfl⟩
abbrev cc5_stg3_0 : Ref sig .tc := ⟨.vmem, 76, rfl⟩
abbrev cc5_stg3_1 : Ref sig .tc := ⟨.vmem, 77, rfl⟩
abbrev cc5_stg4_0 : Ref sig .tc := ⟨.vmem, 78, rfl⟩
abbrev cc5_stg4_1 : Ref sig .tc := ⟨.vmem, 79, rfl⟩
abbrev cc5_stg5_0 : Ref sig .tc := ⟨.vmem, 80, rfl⟩
abbrev cc5_stg5_1 : Ref sig .tc := ⟨.vmem, 81, rfl⟩
abbrev cc5_stg6_0 : Ref sig .tc := ⟨.vmem, 82, rfl⟩
abbrev cc5_stg6_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg2_0 : Ref sig .tc := ⟨.vmem, 87, rfl⟩
abbrev cc6_stg3_0 : Ref sig .tc := ⟨.vmem, 88, rfl⟩
abbrev cc6_stg3_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem2_1 : DmaSem sig := 75
abbrev cc5_sem3_0 : DmaSem sig := 76
abbrev cc5_sem3_1 : DmaSem sig := 77
abbrev cc5_sem4_0 : DmaSem sig := 78
abbrev cc5_sem4_1 : DmaSem sig := 79
abbrev cc5_sem5_0 : DmaSem sig := 80
abbrev cc5_sem5_1 : DmaSem sig := 81
abbrev cc5_sem6_0 : DmaSem sig := 82
abbrev cc5_sem6_1 : DmaSem sig := 83
abbrev cc6_sem0_0 : DmaSem sig := 84
abbrev cc6_sem0_1 : DmaSem sig := 85
abbrev cc6_sem1_0 : DmaSem sig := 86
abbrev cc6_sem2_0 : DmaSem sig := 87
abbrev cc6_sem3_0 : DmaSem sig := 88
abbrev cc6_sem3_1 : DmaSem sig := 89

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1024x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1024x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![8, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1024x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1024x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S1024x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1024x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1024x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S1024x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S1024x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S8192x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x8 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S8x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  transposes_S4096x1024_S1024x4096_1_0 : S4096x1024.Transposes [1, 0] S1024x4096
  bcast_S_S1024x4096 : S_.BroadcastsInDim S1024x4096 (![] : Fin 0 → Fin S1024x4096.rank)
  slices_S6x8192x16_S1x8192x16_0_0_0 : S6x8192x16.Slices ![0, 0, 0] S1x8192x16
  shapeCasts_S1x8192x16_S8192x16 : S1x8192x16.ShapeCasts S8192x16
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  slices_S8192x4_S8192x1_0_0 : S8192x4.Slices ![0, 0] S8192x1
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  slices_S6x8192x16_S1x8192x16_1_0_0 : S6x8192x16.Slices ![1, 0, 0] S1x8192x16
  slices_S5x8192_S1x8192_0_0 : S5x8192.Slices ![0, 0] S1x8192
  shapeCasts_S1x8192_S8192 : S1x8192.ShapeCasts S8192
  slices_S6x8192x16_S1x8192x16_2_0_0 : S6x8192x16.Slices ![2, 0, 0] S1x8192x16
  slices_S5x8192_S1x8192_1_0 : S5x8192.Slices ![1, 0] S1x8192
  slices_S6x8192x16_S1x8192x16_3_0_0 : S6x8192x16.Slices ![3, 0, 0] S1x8192x16
  slices_S5x8192_S1x8192_2_0 : S5x8192.Slices ![2, 0] S1x8192
  slices_S6x8192x16_S1x8192x16_4_0_0 : S6x8192x16.Slices ![4, 0, 0] S1x8192x16
  slices_S5x8192_S1x8192_3_0 : S5x8192.Slices ![3, 0] S1x8192
  slices_S6x8192x16_S1x8192x16_5_0_0 : S6x8192x16.Slices ![5, 0, 0] S1x8192x16
  slices_S5x8192_S1x8192_4_0 : S5x8192.Slices ![4, 0] S1x8192
  shapeCasts_S8_S8x1 : S8.ShapeCasts S8x1
  inb_S8192x256_S1024x256_0_0 : ∀ a, (![0, 0] : Fin 2 → Nat) a + S1024x256.size a ≤ S8192x256.size a
  h_S1024x256 : 0 < S1024x256.numel
  shapeCasts_S1024x256_S1024x256 : S1024x256.ShapeCasts S1024x256
  reduces_S1024x256_S256 : S1024x256.Reduces [0] S256
  shapeCasts_S256_S1x256 : S256.ShapeCasts S1x256
  inb_S8192x256_S1024x256_1024_0 : ∀ a, (![1024, 0] : Fin 2 → Nat) a + S1024x256.size a ≤ S8192x256.size a
  inb_S8192x256_S1024x256_2048_0 : ∀ a, (![2048, 0] : Fin 2 → Nat) a + S1024x256.size a ≤ S8192x256.size a
  inb_S8192x256_S1024x256_3072_0 : ∀ a, (![3072, 0] : Fin 2 → Nat) a + S1024x256.size a ≤ S8192x256.size a
  inb_S8192x256_S1024x256_4096_0 : ∀ a, (![4096, 0] : Fin 2 → Nat) a + S1024x256.size a ≤ S8192x256.size a
  inb_S8192x256_S1024x256_5120_0 : ∀ a, (![5120, 0] : Fin 2 → Nat) a + S1024x256.size a ≤ S8192x256.size a
  inb_S8192x256_S1024x256_6144_0 : ∀ a, (![6144, 0] : Fin 2 → Nat) a + S1024x256.size a ≤ S8192x256.size a
  inb_S8192x256_S1024x256_7168_0 : ∀ a, (![7168, 0] : Fin 2 → Nat) a + S1024x256.size a ≤ S8192x256.size a
  concatenates_S1x256_S1x256_S1x256_S1x256_S1x256_S1x256_S1x256_S1x256_S8x256_d0 : Shape.Concatenates [S1x256, S1x256, S1x256, S1x256, S1x256, S1x256, S1x256, S1x256] S8x256 0
  inb_S8x8_S8x8_0_0 : ∀ a, (![0, 0] : Fin 2 → Nat) a + S8x8.size a ≤ S8x8.size a
  h_S8x8 : 0 < S8x8.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x256 : S8x1.Broadcasts S8x256
  inb_S8x256_S8x256_0_0 : ∀ a, (![0, 0] : Fin 2 → Nat) a + S8x256.size a ≤ S8x256.size a
  h_S8x256 : 0 < S8x256.numel
  transposes_S8x4096_S4096x8_1_0 : S8x4096.Transposes [1, 0] S4096x8
  dot_S8192x16_S16x4_S8192x4_1_0_0_1_n_n_wf : DotDims.WF S8192x16 S16x4 S8192x4 [1] [0] [0] [1] [] []
  gather_S1024x4096_S8192x1_S8192x4096_1_0_n_n_0_1_14096_wf : GatherDims.WF S1024x4096 S8192x1 S8192x4096 [1] [0] [] [0] [] 1 ![1, 4096]
  gather_S8192x4096_S8192x1_S8192x4096_1_0_n_n_0_1_14096_wf : GatherDims.WF S8192x4096 S8192x1 S8192x4096 [1] [0] [] [0] [] 1 ![1, 4096]
  dot_S8x8_S8x256_S8x256_1_0_0_1_n_n_wf : DotDims.WF S8x8 S8x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .f32 = 32 ∨ (Rect.block (s := S8192x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x4096.size a
  hwx0_6 : ∀ i : grid0.Coords, EltTy.bits .f32 = 32 ∨ (Rect.block (s := S8192x4096) S1024x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x4096.size a
  hwx1_1 : ∀ i : grid1.Coords, EltTy.bits .f32 = 32 ∨ (Rect.block (s := S8192x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S8192x4096.size a
  hwx1_6 : ∀ i : grid1.Coords, EltTy.bits .f32 = 32 ∨ (Rect.block (s := S8192x4096) S1024x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x4096.size a
  hwx2_0 : ∀ i : grid2.Coords, EltTy.bits .f32 = 32 ∨ (Rect.block (s := S8192x4096) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x4096.size a
  hwx2_1 : ∀ i : grid2.Coords, EltTy.bits .f32 = 32 ∨ (Rect.block (s := S8192x4096) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S8192x1.size a
  hwx2_5 : ∀ i : grid2.Coords, EltTy.bits .f32 = 32 ∨ (Rect.block (s := S8192x1) S1024x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S8192x4096.size a
  hwx2_6 : ∀ i : grid2.Coords, EltTy.bits .f32 = 32 ∨ (Rect.block (s := S8192x4096) S1024x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x4096.size a
  hwx3_0 : ∀ i : grid3.Coords, EltTy.bits .f32 = 32 ∨ (Rect.block (s := S8192x4096) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x4096.size a
  hwx3_1 : ∀ i : grid3.Coords, EltTy.bits .f32 = 32 ∨ (Rect.block (s := S8192x4096) S1024x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S8192x1.size a
  hwx3_3 : ∀ i : grid3.Coords, EltTy.bits .f32 = 32 ∨ (Rect.block (s := S8192x1) S1024x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1.size a ≤ S8192x1.size a
  hwx3_4 : ∀ i : grid3.Coords, EltTy.bits .f32 = 32 ∨ (Rect.block (s := S8192x1) S1024x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S8192x1.size a
  hwx3_5 : ∀ i : grid3.Coords, EltTy.bits .f32 = 32 ∨ (Rect.block (s := S8192x1) S1024x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x512.size a ≤ S8192x4096.size a
  hwx3_6 : ∀ i : grid3.Coords, EltTy.bits .f32 = 32 ∨ (Rect.block (s := S8192x4096) S1024x512.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x4096.size a
  hwx4_0 : ∀ i : grid4.Coords, EltTy.bits .f32 = 32 ∨ (Rect.block (s := S8192x4096) S1024x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S8192x4096.size a
  hwx4_1 : ∀ i : grid4.Coords, EltTy.bits .f32 = 32 ∨ (Rect.block (s := S8192x4096) S1024x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S8192x1.size a
  hwx4_2 : ∀ i : grid4.Coords, EltTy.bits .f32 = 32 ∨ (Rect.block (s := S8192x1) S1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1.size a ≤ S8192x1.size a
  hwx4_3 : ∀ i : grid4.Coords, EltTy.bits .f32 = 32 ∨ (Rect.block (s := S8192x1) S1024x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x1.size a ≤ S8192x1.size a
  hwx4_4 : ∀ i : grid4.Coords, EltTy.bits .f32 = 32 ∨ (Rect.block (s := S8192x1) S1024x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x1.size a ≤ S8192x1.size a
  hwx4_5 : ∀ i : grid4.Coords, EltTy.bits .f32 = 32 ∨ (Rect.block (s := S8192x1) S1024x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x512.size a ≤ S8192x4096.size a
  hwx4_6 : ∀ i : grid4.Coords, EltTy.bits .f32 = 32 ∨ (Rect.block (s := S8192x4096) S1024x512.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x512.size a ≤ S8192x4096.size a
  hwx5_0 : ∀ i : grid5.Coords, EltTy.bits .f32 = 32 ∨ (Rect.block (s := S8192x4096) S1024x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S8192x4096.size a
  hwx5_1 : ∀ i : grid5.Coords, EltTy.bits .f32 = 32 ∨ (Rect.block (s := S8192x4096) S1024x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1.size a ≤ S8192x1.size a
  hwx5_2 : ∀ i : grid5.Coords, EltTy.bits .f32 = 32 ∨ (Rect.block (s := S8192x1) S1024x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1.size a ≤ S8192x1.size a
  hwx5_3 : ∀ i : grid5.Coords, EltTy.bits .f32 = 32 ∨ (Rect.block (s := S8192x1) S1024x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x1.size a ≤ S8192x1.size a
  hwx5_4 : ∀ i : grid5.Coords, EltTy.bits .f32 = 32 ∨ (Rect.block (s := S8192x1) S1024x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x1.size a ≤ S8192x1.size a
  hwx5_5 : ∀ i : grid5.Coords, EltTy.bits .f32 = 32 ∨ (Rect.block (s := S8192x1) S1024x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1024x512.size a ≤ S8192x4096.size a
  hwx5_6 : ∀ i : grid5.Coords, EltTy.bits .f32 = 32 ∨ (Rect.block (s := S8192x4096) S1024x512.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x256.size a ≤ S8192x4096.size a
  hwx6_0 : ∀ i : grid6.Coords, EltTy.bits .f32 = 32 ∨ (Rect.block (s := S8192x4096) S8192x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8x8.size a ≤ S8x8.size a
  hwx6_1 : ∀ i : grid6.Coords, EltTy.bits .f32 = 32 ∨ (Rect.block (s := S8x8) S8x8.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S8x1.size a ≤ S8x1.size a
  hwx6_2 : ∀ i : grid6.Coords, EltTy.bits .f32 = 32 ∨ (Rect.block (s := S8x1) S8x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8x256.size a ≤ S8x4096.size a
  hwx6_3 : ∀ i : grid6.Coords, EltTy.bits .f32 = 32 ∨ (Rect.block (s := S8x4096) S8x256.size (cc6_transform_3 i) (hinb6_3 i)).WholeWords (EltTy.packing .f32)

variable [Facts₀]

def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def gather_S1024x4096_S8192x1_S8192x4096_1_0_n_n_0_1_14096 : GatherDims S1024x4096 S8192x1 S8192x4096 where
  offsetDims := [1]
  collapsedSliceDims := [0]
  operandBatchingDims := []
  startIndicesBatchingDims := []
  startIndexMap := [0]
  indexVectorDim := 1
  sliceSizes := ![1, 4096]
  wf := gather_S1024x4096_S8192x1_S8192x4096_1_0_n_n_0_1_14096_wf
def gather_S8192x4096_S8192x1_S8192x4096_1_0_n_n_0_1_14096 : GatherDims S8192x4096 S8192x1 S8192x4096 where
  offsetDims := [1]
  collapsedSliceDims := [0]
  operandBatchingDims := []
  startIndicesBatchingDims := []
  startIndexMap := [0]
  indexVectorDim := 1
  sliceSizes := ![1, 4096]
  wf := gather_S8192x4096_S8192x1_S8192x4096_1_0_n_n_0_1_14096_wf
def dot_S8x8_S8x256_S8x256_1_0_0_1_n_n : DotDims S8x8 S8x256 S8x256 where
  lhsContracting := [1]
  rhsContracting := [0]
  lhsNonContracting := [0]
  rhsNonContracting := [1]
  lhsBatch := []
  rhsBatch := []
  wf := dot_S8x8_S8x256_S8x256_1_0_0_1_n_n_wf

abbrev win0_0 : Pipeline.Window sig grid0 :=
  Pipeline.Window.ofSpec (Memref.whole main_v22) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v70) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1024x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1024x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v74) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v95) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1024x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v92) S1024x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v99) S1024x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v120) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v123) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v114) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v115) S1024x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v116) S1024x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v117) S1024x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v124) S1024x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v145) S1024x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v148) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v139) S1024x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v140) S1024x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v141) S1024x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v142) S1024x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v149) S1024x512.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v149) S8192x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S8x8.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v150) S8x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v151) S8x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S4096x1024 : Shape := ⟨2, ![4096, 1024]⟩
abbrev S6x8192x16 : Shape := ⟨3, ![6, 8192, 16]⟩
abbrev S8x8 : Shape := ⟨2, ![8, 8]⟩
abbrev S8 : Shape := ⟨1, ![8]⟩
abbrev S8192 : Shape := ⟨1, ![8192]⟩
abbrev S5x8192 : Shape := ⟨2, ![5, 8192]⟩
abbrev S16x4 : Shape := ⟨2, ![16, 4]⟩
abbrev S_ : Shape := ⟨0, ![]⟩
abbrev S1x8192x16 : Shape := ⟨3, ![1, 8192, 16]⟩
abbrev S8192x16 : Shape := ⟨2, ![8192, 16]⟩
abbrev S8192x1 : Shape := ⟨2, ![8192, 1]⟩
abbrev S8192x4 : Shape := ⟨2, ![8192, 4]⟩
abbrev S4096x8192 : Shape := ⟨2, ![4096, 8192]⟩
abbrev S1x8192 : Shape := ⟨2, ![1, 8192]⟩
abbrev S4096x8x1024 : Shape := ⟨3, ![4096, 8, 1024]⟩
abbrev S4096x8 : Shape := ⟨2, ![4096, 8]⟩
abbrev S1x8 : Shape := ⟨2, ![1, 8]⟩

abbrev nBuf : Space → Nat
  | .hbm => 392
  | .vmem => 0
  | .smem => 0
  | _ => 0

abbrev hbmTy0_0 (i : Nat) : BufTy := match i % 128 with
  | 0 => ⟨S4096x1024, .f32⟩
  | 1 => ⟨S6x8192x16, .f32⟩
  | 2 => ⟨S8x8, .f32⟩
  | 3 => ⟨S8, .f32⟩
  | 4 => ⟨S8192, .i32⟩
  | 5 => ⟨S8192, .i32⟩
  | 6 => ⟨S5x8192, .i32⟩
  | 7 => ⟨S5x8192, .i32⟩
  | 8 => ⟨S16x4, .f32⟩
  | 9 => ⟨S_, .f32⟩
  | 10 => ⟨S4096x1024, .f32⟩
  | 11 => ⟨S4096x1024, .i1⟩
  | 12 => ⟨S4096x1024, .f32⟩
  | 13 => ⟨S1x8192x16, .f32⟩
  | 14 => ⟨S8192x16, .f32⟩
  | 15 => ⟨S_, .f32⟩
  | 16 => ⟨S8192, .f32⟩
  | 17 => ⟨S_, .f32⟩
  | 18 => ⟨S8192, .f32⟩
  | 19 => ⟨S8192, .f32⟩
  | 20 => ⟨S8192x1, .f32⟩
  | 21 => ⟨S8192x16, .f32⟩
  | 22 => ⟨S8192x16, .f32⟩
  | 23 => ⟨S8192x16, .f32⟩
  | 24 => ⟨S_, .f32⟩
  | 25 => ⟨S8192, .f32⟩
  | 26 => ⟨S8192x1, .f32⟩
  | 27 => ⟨S8192x16, .f32⟩
  | 28 => ⟨S8192x16, .f32⟩
  | 29 => ⟨S8192x4, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S4096x8192, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S4096x8192, .f32⟩
  | 48 => ⟨S8192x1, .f32⟩
  | 49 => ⟨S8192, .f32⟩
  | 50 => ⟨S8192x1, .f32⟩
  | 51 => ⟨S8192, .f32⟩
  | 52 => ⟨S1x8192, .f32⟩
  | 53 => ⟨S4096x8192, .f32⟩
  | 54 => ⟨S4096x8192, .f32⟩
  | 55 => ⟨S1x8192, .f32⟩
  | 56 => ⟨S4096x8192, .f32⟩
  | 57 => ⟨S4096x8192, .f32⟩
  | 58 => ⟨S8192x1, .f32⟩
  | 59 => ⟨S8192, .f32⟩
  | 60 => ⟨S1x8192, .f32⟩
  | 61 => ⟨S4096x8192, .f32⟩
  | 62 => ⟨S4096x8192, .f32⟩
  | 63 => ⟨S4096x8192, .f32⟩
  | 64 => ⟨S8192x1, .f32⟩
  | 65 => ⟨S8192, .f32⟩
  | 66 => ⟨S4096x8192, .f32⟩
  | 67 => ⟨S1x8192, .f32⟩
  | 68 => ⟨S4096x8192, .f32⟩
  | 69 => ⟨S4096x8192, .f32⟩
  | 70 => ⟨S4096x8192, .f32⟩
  | 71 => ⟨S1x8192x16, .f32⟩
  | 72 => ⟨S8192x16, .f32⟩
  | 73 => ⟨S1x8192, .i32⟩
  | 74 => ⟨S8192, .i32⟩
  | 75 => ⟨S1x8192, .i32⟩
  | 76 => ⟨S8192, .i32⟩
  | 77 => ⟨S_, .f32⟩
  | 78 => ⟨S8192, .f32⟩
  | 79 => ⟨S_, .f32⟩
  | 80 => ⟨S8192, .f32⟩
  | 81 => ⟨S8192, .f32⟩
  | 82 => ⟨S8192x1, .f32⟩
  | 83 => ⟨S8192x16, .f32⟩
  | 84 => ⟨S8192x16, .f32⟩
  | 85 => ⟨S8192x16, .f32⟩
  | 86 => ⟨S_, .f32⟩
  | 87 => ⟨S8192, .f32⟩
  | 88 => ⟨S8192x1, .f32⟩
  | 89 => ⟨S8192x16, .f32⟩
  | 90 => ⟨S8192x16, .f32⟩
  | 91 => ⟨S8192x4, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S4096x8192, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S4096x8192, .f32⟩
  | 110 => ⟨S8192x1, .f32⟩
  | 111 => ⟨S8192, .f32⟩
  | 112 => ⟨S8192x1, .f32⟩
  | 113 => ⟨S8192, .f32⟩
  | 114 => ⟨S1x8192, .f32⟩
  | 115 => ⟨S4096x8192, .f32⟩
  | 116 => ⟨S4096x8192, .f32⟩
  | 117 => ⟨S1x8192, .f32⟩
  | 118 => ⟨S4096x8192, .f32⟩
  | 119 => ⟨S4096x8192, .f32⟩
  | 120 => ⟨S8192x1, .f32⟩
  | 121 => ⟨S8192, .f32⟩
  | 122 => ⟨S1x8192, .f32⟩
  | 123 => ⟨S4096x8192, .f32⟩
  | 124 => ⟨S4096x8192, .f32⟩
  | 125 => ⟨S4096x8192, .f32⟩
  | 126 => ⟨S8192x1, .f32⟩
  | 127 => ⟨S8192, .f32⟩
  | _ => ⟨S4096x1024, .f32⟩

abbrev hbmTy0_1 (i : Nat) : BufTy := match i % 128 with
  | 0 => ⟨S4096x8192, .f32⟩
  | 1 => ⟨S1x8192, .f32⟩
  | 2 => ⟨S4096x8192, .f32⟩
  | 3 => ⟨S4096x8192, .f32⟩
  | 4 => ⟨S4096x8192, .f32⟩
  | 5 => ⟨S1x8192x16, .f32⟩
  | 6 => ⟨S8192x16, .f32⟩
  | 7 => ⟨S1x8192, .i32⟩
  | 8 => ⟨S8192, .i32⟩
  | 9 => ⟨S1x8192, .i32⟩
  | 10 => ⟨S8192, .i32⟩
  | 11 => ⟨S_, .f32⟩
  | 12 => ⟨S8192, .f32⟩
  | 13 => ⟨S_, .f32⟩
  | 14 => ⟨S8192, .f32⟩
  | 15 => ⟨S8192, .f32⟩
  | 16 => ⟨S8192x1, .f32⟩
  | 17 => ⟨S8192x16, .f32⟩
  | 18 => ⟨S8192x16, .f32⟩
  | 19 => ⟨S8192x16, .f32⟩
  | 20 => ⟨S_, .f32⟩
  | 21 => ⟨S8192, .f32⟩
  | 22 => ⟨S8192x1, .f32⟩
  | 23 => ⟨S8192x16, .f32⟩
  | 24 => ⟨S8192x16, .f32⟩
  | 25 => ⟨S8192x4, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S4096x8192, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S4096x8192, .f32⟩
  | 44 => ⟨S8192x1, .f32⟩
  | 45 => ⟨S8192, .f32⟩
  | 46 => ⟨S8192x1, .f32⟩
  | 47 => ⟨S8192, .f32⟩
  | 48 => ⟨S1x8192, .f32⟩
  | 49 => ⟨S4096x8192, .f32⟩
  | 50 => ⟨S4096x8192, .f32⟩
  | 51 => ⟨S1x8192, .f32⟩
  | 52 => ⟨S4096x8192, .f32⟩
  | 53 => ⟨S4096x8192, .f32⟩
  | 54 => ⟨S8192x1, .f32⟩
  | 55 => ⟨S8192, .f32⟩
  | 56 => ⟨S1x8192, .f32⟩
  | 57 => ⟨S4096x8192, .f32⟩
  | 58 => ⟨S4096x8192, .f32⟩
  | 59 => ⟨S4096x8192, .f32⟩
  | 60 => ⟨S8192x1, .f32⟩
  | 61 => ⟨S8192, .f32⟩
  | 62 => ⟨S4096x8192, .f32⟩
  | 63 => ⟨S1x8192, .f32⟩
  | 64 => ⟨S4096x8192, .f32⟩
  | 65 => ⟨S4096x8192, .f32⟩
  | 66 => ⟨S4096x8192, .f32⟩
  | 67 => ⟨S1x8192x16, .f32⟩
  | 68 => ⟨S8192x16, .f32⟩
  | 69 => ⟨S1x8192, .i32⟩
  | 70 => ⟨S8192, .i32⟩
  | 71 => ⟨S1x8192, .i32⟩
  | 72 => ⟨S8192, .i32⟩
  | 73 => ⟨S_, .f32⟩
  | 74 => ⟨S8192, .f32⟩
  | 75 => ⟨S_, .f32⟩
  | 76 => ⟨S8192, .f32⟩
  | 77 => ⟨S8192, .f32⟩
  | 78 => ⟨S8192x1, .f32⟩
  | 79 => ⟨S8192x16, .f32⟩
  | 80 => ⟨S8192x16, .f32⟩
  | 81 => ⟨S8192x16, .f32⟩
  | 82 => ⟨S_, .f32⟩
  | 83 => ⟨S8192, .f32⟩
  | 84 => ⟨S8192x1, .f32⟩
  | 85 => ⟨S8192x16, .f32⟩
  | 86 => ⟨S8192x16, .f32⟩
  | 87 => ⟨S8192x4, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S4096x8192, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S4096x8192, .f32⟩
  | 106 => ⟨S8192x1, .f32⟩
  | 107 => ⟨S8192, .f32⟩
  | 108 => ⟨S8192x1, .f32⟩
  | 109 => ⟨S8192, .f32⟩
  | 110 => ⟨S1x8192, .f32⟩
  | 111 => ⟨S4096x8192, .f32⟩
  | 112 => ⟨S4096x8192, .f32⟩
  | 113 => ⟨S1x8192, .f32⟩
  | 114 => ⟨S4096x8192, .f32⟩
  | 115 => ⟨S4096x8192, .f32⟩
  | 116 => ⟨S8192x1, .f32⟩
  | 117 => ⟨S8192, .f32⟩
  | 118 => ⟨S1x8192, .f32⟩
  | 119 => ⟨S4096x8192, .f32⟩
  | 120 => ⟨S4096x8192, .f32⟩
  | 121 => ⟨S4096x8192, .f32⟩
  | 122 => ⟨S8192x1, .f32⟩
  | 123 => ⟨S8192, .f32⟩
  | 124 => ⟨S4096x8192, .f32⟩
  | 125 => ⟨S1x8192, .f32⟩
  | 126 => ⟨S4096x8192, .f32⟩
  | 127 => ⟨S4096x8192, .f32⟩
  | _ => ⟨S4096x1024, .f32⟩

abbrev hbmTy0_2 (i : Nat) : BufTy := match i % 128 with
  | 0 => ⟨S4096x8192, .f32⟩
  | 1 => ⟨S1x8192x16, .f32⟩
  | 2 => ⟨S8192x16, .f32⟩
  | 3 => ⟨S1x8192, .i32⟩
  | 4 => ⟨S8192, .i32⟩
  | 5 => ⟨S1x8192, .i32⟩
  | 6 => ⟨S8192, .i32⟩
  | 7 => ⟨S_, .f32⟩
  | 8 => ⟨S8192, .f32⟩
  | 9 => ⟨S_, .f32⟩
  | 10 => ⟨S8192, .f32⟩
  | 11 => ⟨S8192, .f32⟩
  | 12 => ⟨S8192x1, .f32⟩
  | 13 => ⟨S8192x16, .f32⟩
  | 14 => ⟨S8192x16, .f32⟩
  | 15 => ⟨S8192x16, .f32⟩
  | 16 => ⟨S_, .f32⟩
  | 17 => ⟨S8192, .f32⟩
  | 18 => ⟨S8192x1, .f32⟩
  | 19 => ⟨S8192x16, .f32⟩
  | 20 => ⟨S8192x16, .f32⟩
  | 21 => ⟨S8192x4, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S4096x8192, .f32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S4096x8192, .f32⟩
  | 40 => ⟨S8192x1, .f32⟩
  | 41 => ⟨S8192, .f32⟩
  | 42 => ⟨S8192x1, .f32⟩
  | 43 => ⟨S8192, .f32⟩
  | 44 => ⟨S1x8192, .f32⟩
  | 45 => ⟨S4096x8192, .f32⟩
  | 46 => ⟨S4096x8192, .f32⟩
  | 47 => ⟨S1x8192, .f32⟩
  | 48 => ⟨S4096x8192, .f32⟩
  | 49 => ⟨S4096x8192, .f32⟩
  | 50 => ⟨S8192x1, .f32⟩
  | 51 => ⟨S8192, .f32⟩
  | 52 => ⟨S1x8192, .f32⟩
  | 53 => ⟨S4096x8192, .f32⟩
  | 54 => ⟨S4096x8192, .f32⟩
  | 55 => ⟨S4096x8192, .f32⟩
  | 56 => ⟨S8192x1, .f32⟩
  | 57 => ⟨S8192, .f32⟩
  | 58 => ⟨S4096x8192, .f32⟩
  | 59 => ⟨S1x8192, .f32⟩
  | 60 => ⟨S4096x8192, .f32⟩
  | 61 => ⟨S4096x8192, .f32⟩
  | 62 => ⟨S4096x8192, .f32⟩
  | 63 => ⟨S1x8192x16, .f32⟩
  | 64 => ⟨S8192x16, .f32⟩
  | 65 => ⟨S1x8192, .i32⟩
  | 66 => ⟨S8192, .i32⟩
  | 67 => ⟨S1x8192, .i32⟩
  | 68 => ⟨S8192, .i32⟩
  | 69 => ⟨S_, .f32⟩
  | 70 => ⟨S8192, .f32⟩
  | 71 => ⟨S_, .f32⟩
  | 72 => ⟨S8192, .f32⟩
  | 73 => ⟨S8192, .f32⟩
  | 74 => ⟨S8192x1, .f32⟩
  | 75 => ⟨S8192x16, .f32⟩
  | 76 => ⟨S8192x16, .f32⟩
  | 77 => ⟨S8192x16, .f32⟩
  | 78 => ⟨S_, .f32⟩
  | 79 => ⟨S8192, .f32⟩
  | 80 => ⟨S8192x1, .f32⟩
  | 81 => ⟨S8192x16, .f32⟩
  | 82 => ⟨S8192x16, .f32⟩
  | 83 => ⟨S8192x4, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S4096x8192, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S4096x8192, .f32⟩
  | 102 => ⟨S8192x1, .f32⟩
  | 103 => ⟨S8192, .f32⟩
  | 104 => ⟨S8192x1, .f32⟩
  | 105 => ⟨S8192, .f32⟩
  | 106 => ⟨S1x8192, .f32⟩
  | 107 => ⟨S4096x8192, .f32⟩
  | 108 => ⟨S4096x8192, .f32⟩
  | 109 => ⟨S1x8192, .f32⟩
  | 110 => ⟨S4096x8192, .f32⟩
  | 111 => ⟨S4096x8192, .f32⟩
  | 112 => ⟨S8192x1, .f32⟩
  | 113 => ⟨S8192, .f32⟩
  | 114 => ⟨S1x8192, .f32⟩
  | 115 => ⟨S4096x8192, .f32⟩
  | 116 => ⟨S4096x8192, .f32⟩
  | 117 => ⟨S4096x8192, .f32⟩
  | 118 => ⟨S8192x1, .f32⟩
  | 119 => ⟨S8192, .f32⟩
  | 120 => ⟨S4096x8192, .f32⟩
  | 121 => ⟨S1x8192, .f32⟩
  | 122 => ⟨S4096x8192, .f32⟩
  | 123 => ⟨S4096x8192, .f32⟩
  | 124 => ⟨S4096x8192, .f32⟩
  | 125 => ⟨S4096x8x1024, .f32⟩
  | 126 => ⟨S_, .f32⟩
  | 127 => ⟨S4096x8, .f32⟩
  | _ => ⟨S4096x1024, .f32⟩

abbrev hbmTy0_3 (i : Nat) : BufTy := match i % 128 with
  | 0 => ⟨S_, .f32⟩
  | 1 => ⟨S4096x8, .f32⟩
  | 2 => ⟨S4096x8, .f32⟩
  | 3 => ⟨S8x8, .f32⟩
  | 4 => ⟨S4096x8, .f32⟩
  | 5 => ⟨S1x8, .f32⟩
  | 6 => ⟨S4096x8, .f32⟩
  | 7 => ⟨S4096x8, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_10 : Ref sig .tc := ⟨.hbm, 92, rfl⟩
abbrev main_v72 : Ref sig .tc := ⟨.hbm, 93, rfl⟩
abbrev main_v73 : Ref sig .tc := ⟨.hbm, 94, rfl⟩
abbrev main_c_11 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_12 : Ref sig .tc := ⟨.hbm, 101, rfl⟩
abbrev main_v79 : Ref sig .tc := ⟨.hbm, 102, rfl⟩
abbrev main_v80 : Ref sig .tc := ⟨.hbm, 103, rfl⟩
abbrev main_c_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_14 : Ref sig .tc := ⟨.hbm, 139, rfl⟩
abbrev main_v115 : Ref sig .tc := ⟨.hbm, 140, rfl⟩
abbrev main_cst_15 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_16 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_c_17 : Ref sig .tc := ⟨.hbm, 154, rfl⟩
abbrev main_v127 : Ref sig .tc := ⟨.hbm, 155, rfl⟩
abbrev main_v128 : Ref sig .tc := ⟨.hbm, 156, rfl⟩
abbrev main_c_18 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_c_19 : Ref sig .tc := ⟨.hbm, 163, rfl⟩
abbrev main_v134 : Ref sig .tc := ⟨.hbm, 164, rfl⟩
abbrev main_v135 : Ref sig .tc := ⟨.hbm, 165, rfl⟩
abbrev main_c_20 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_cst_21 : Ref sig .tc := ⟨.hbm, 201, rfl⟩
abbrev main_v170 : Ref sig .tc := ⟨.hbm, 202, rfl⟩
abbrev main_cst_22 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_cst_23 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_c_24 : Ref sig .tc := ⟨.hbm, 216, rfl⟩
abbrev main_v182 : Ref sig .tc := ⟨.hbm, 217, rfl⟩
abbrev main_v183 : Ref sig .tc := ⟨.hbm, 218, rfl⟩
abbrev main_c_25 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_c_26 : Ref sig .tc := ⟨.hbm, 225, rfl⟩
abbrev main_v189 : Ref sig .tc := ⟨.hbm, 226, rfl⟩
abbrev main_v190 : Ref sig .tc := ⟨.hbm, 227, rfl⟩
abbrev main_c_27 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_cst_28 : Ref sig .tc := ⟨.hbm, 263, rfl⟩
abbrev main_v225 : Ref sig .tc := ⟨.hbm, 264, rfl⟩
abbrev main_cst_29 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_cst_30 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_c_31 : Ref sig .tc := ⟨.hbm, 278, rfl⟩
abbrev main_v237 : Ref sig .tc := ⟨.hbm, 279, rfl⟩
abbrev main_v238 : Ref sig .tc := ⟨.hbm, 280, rfl⟩
abbrev main_c_32 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_c_33 : Ref sig .tc := ⟨.hbm, 287, rfl⟩
abbrev main_v244 : Ref sig .tc := ⟨.hbm, 288, rfl⟩
abbrev main_v245 : Ref sig .tc := ⟨.hbm, 289, rfl⟩
abbrev main_c_34 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_cst_35 : Ref sig .tc := ⟨.hbm, 325, rfl⟩
abbrev main_v280 : Ref sig .tc := ⟨.hbm, 326, rfl⟩
abbrev main_cst_36 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_cst_37 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_c_38 : Ref sig .tc := ⟨.hbm, 340, rfl⟩
abbrev main_v292 : Ref sig .tc := ⟨.hbm, 341, rfl⟩
abbrev main_v293 : Ref sig .tc := ⟨.hbm, 342, rfl⟩
abbrev main_c_39 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_c_40 : Ref sig .tc := ⟨.hbm, 349, rfl⟩
abbrev main_v299 : Ref sig .tc := ⟨.hbm, 350, rfl⟩
abbrev main_v300 : Ref sig .tc := ⟨.hbm, 351, rfl⟩
abbrev main_c_41 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_cst_42 : Ref sig .tc := ⟨.hbm, 382, rfl⟩
abbrev main_v330 : Ref sig .tc := ⟨.hbm, 383, rfl⟩
abbrev main_cst_43 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  slices_S6x8192x16_S1x8192x16_0_0_0 : S6x8192x16.Slices ![0, 0, 0] S1x8192x16
  shapeCasts_S1x8192x16_S8192x16 : S1x8192x16.ShapeCasts S8192x16
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  slices_S8192x4_S8192x1_0_0 : S8192x4.Slices ![0, 0] S8192x1
  shapeCasts_S8192x1_S8192 : S8192x1.ShapeCasts S8192
  slices_S8192x4_S8192x1_0_1 : S8192x4.Slices ![0, 1] S8192x1
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S8192x4_S8192x1_0_2 : S8192x4.Slices ![0, 2] S8192x1
  slices_S8192x4_S8192x1_0_3 : S8192x4.Slices ![0, 3] S8192x1
  slices_S6x8192x16_S1x8192x16_1_0_0 : S6x8192x16.Slices ![1, 0, 0] S1x8192x16
  slices_S5x8192_S1x8192_0_0 : S5x8192.Slices ![0, 0] S1x8192
  shapeCasts_S1x8192_S8192 : S1x8192.ShapeCasts S8192
  slices_S6x8192x16_S1x8192x16_2_0_0 : S6x8192x16.Slices ![2, 0, 0] S1x8192x16
  slices_S5x8192_S1x8192_1_0 : S5x8192.Slices ![1, 0] S1x8192
  slices_S6x8192x16_S1x8192x16_3_0_0 : S6x8192x16.Slices ![3, 0, 0] S1x8192x16
  slices_S5x8192_S1x8192_2_0 : S5x8192.Slices ![2, 0] S1x8192
  slices_S6x8192x16_S1x8192x16_4_0_0 : S6x8192x16.Slices ![4, 0, 0] S1x8192x16
  slices_S5x8192_S1x8192_3_0 : S5x8192.Slices ![3, 0] S1x8192
  slices_S6x8192x16_S1x8192x16_5_0_0 : S6x8192x16.Slices ![5, 0, 0] S1x8192x16
  slices_S5x8192_S1x8192_4_0 : S5x8192.Slices ![4, 0] S1x8192
  shapeCasts_S4096x8192_S4096x8x1024 : S4096x8192.ShapeCasts S4096x8x1024
  reducesTo_S4096x8x1024_S4096x8_d2 : S4096x8x1024.ReducesTo [2] S4096x8
  bcast_S_S4096x8 : S_.BroadcastsInDim S4096x8 (![] : Fin 0 → Fin S4096x8.rank)
  transposes_S8x8_S8x8_1_0 : S8x8.Transposes [1, 0] S8x8
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  dot_S8192x16_S16x4_S8192x4_1_0_0_1_n_n_wf : DotDims.WF S8192x16 S16x4 S8192x4 [1] [0] [0] [1] [] []
  gather_S4096x1024_S8192x1_S4096x8192_0_1_n_n_1_1_40961_wf : GatherDims.WF S4096x1024 S8192x1 S4096x8192 [0] [1] [] [1] [] 1 ![4096, 1]
  gather_S4096x8192_S8192x1_S4096x8192_0_1_n_n_1_1_40961_wf : GatherDims.WF S4096x8192 S8192x1 S4096x8192 [0] [1] [] [1] [] 1 ![4096, 1]
  dot_S4096x8_S8x8_S4096x8_1_0_0_1_n_n_wf : DotDims.WF S4096x8 S8x8 S4096x8 [1] [0] [0] [1] [] []

variable [Facts₀]

def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def gather_S4096x1024_S8192x1_S4096x8192_0_1_n_n_1_1_40961 : GatherDims S4096x1024 S8192x1 S4096x8192 where
  offsetDims := [0]
  collapsedSliceDims := [1]
  operandBatchingDims := []
  startIndicesBatchingDims := []
  startIndexMap := [1]
  indexVectorDim := 1
  sliceSizes := ![4096, 1]
  wf := gather_S4096x1024_S8192x1_S4096x8192_0_1_n_n_1_1_40961_wf
def gather_S4096x8192_S8192x1_S4096x8192_0_1_n_n_1_1_40961 : GatherDims S4096x8192 S8192x1 S4096x8192 where
  offsetDims := [0]
  collapsedSliceDims := [1]
  operandBatchingDims := []
  startIndicesBatchingDims := []
  startIndexMap := [1]
  indexVectorDim := 1
  sliceSizes := ![4096, 1]
  wf := gather_S4096x8192_S8192x1_S4096x8192_0_1_n_n_1_1_40961_wf
def dot_S4096x8_S8x8_S4096x8_1_0_0_1_n_n : DotDims S4096x8 S8x8 S4096x8 where
  lhsContracting := [1]
  rhsContracting := [0]
  lhsNonContracting := [0]
  rhsNonContracting := [1]
  lhsBatch := []
  rhsBatch := []
  wf := dot_S4096x8_S8x8_S4096x8_1_0_0_1_n_n_wf

class Facts : Prop extends Facts₀ where

variable [Facts]
-- ==== Proof.RefOps.lean ====
import proofs.«416395_j89292370084186_2_alg».proof.ReferenceIdeal
import proofs.«416395_j89292370084186_2_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

-- The reference's statements, cut where the binarisation, each layer and the head end.
abbrev Lpre : List (HloOp τ sig (Elt F)) :=
  [ StableHlo.nullary main_cst (fun i => FloatOps.ofBits .f32 (lit0 (S16x4.rowMajor i))),
    StableHlo.nullary main_cst_0 (constant S_ .f32 0x3F000000#32),
    StableHlo.unary main_cst_0 main_v0 (broadcastInDim S4096x1024 ![] bcast_S_S4096x1024),
    StableHlo.binary main_arg0 main_v0 main_v1 (cmpf .ogt),
    StableHlo.unary main_v1 main_v2 (uitofp .f32) ]

abbrev L0 : List (HloOp τ sig (Elt F)) :=
  [ StableHlo.unary main_arg1 main_v3 ((extractStridedSlice S1x8192x16 ![0, 0, 0] · slices_S6x8192x16_S1x8192x16_0_0_0)),
    StableHlo.reshape main_v3 main_v4 rfl shapeCasts_S1x8192x16_S8192x16,
    StableHlo.nullary main_cst_1 (constant S_ .f32 0xFF800000#32),
    StableHlo.binary main_v4 main_cst_1 main_v5 ((fun x v => Host.reduce FloatOps.maximumf x v reducesTo_S8192x16_S8192_d1 h_S_)),
    StableHlo.nullary main_cst_2 (constant S_ .f32 0xFF800000#32),
    StableHlo.unary main_cst_2 main_v6 (broadcastInDim S8192 ![] bcast_S_S8192),
    StableHlo.binary main_v6 main_v5 main_v7 (maximumf),
    StableHlo.unary main_v7 main_v8 (broadcastInDim S8192x1 ![0] bcast_S8192_S8192x1_0),
    StableHlo.unary main_v8 main_v9 (broadcastInDim S8192x16 ![0, 1] bcast_S8192x1_S8192x16_0_1),
    StableHlo.binary main_v4 main_v9 main_v10 (subf),
    StableHlo.unary main_v10 main_v11 (Host.exp),
    StableHlo.nullary main_cst_3 (constant S_ .f32 0x00000000#32),
    StableHlo.binary main_v11 main_cst_3 main_v12 ((fun x v => Host.reduceAdd x v reducesTo_S8192x16_S8192_d1 h_S_)),
    StableHlo.unary main_v12 main_v13 (broadcastInDim S8192x1 ![0] bcast_S8192_S8192x1_0),
    StableHlo.unary main_v13 main_v14 (broadcastInDim S8192x16 ![0, 1] bcast_S8192x1_S8192x16_0_1),
    StableHlo.binary main_v11 main_v14 main_v15 (Host.divf),
    StableHlo.binary main_v15 main_cst main_v16 ((fun l r => Host.dotGeneral dot_S8192x16_S16x4_S8192x4_1_0_0_1_n_n none l r)),
    StableHlo.nullary main_c (constantI S_ 32 0#32),
    StableHlo.unary main_c main_v17 (broadcastInDim S8192 ![] bcast_S_S8192),
    StableHlo.binary main_arg4 main_v17 main_v18 (cmpi .slt),
    StableHlo.nullary main_c_4 (constantI S_ 32 1024#32),
    StableHlo.unary main_c_4 main_v19 (broadcastInDim S8192 ![] bcast_S_S8192),
    StableHlo.binary main_arg4 main_v19 main_v20 (addi),
    StableHlo.ternary main_v18 main_v20 main_arg4 main_v21 (select),
    StableHlo.unary main_v21 main_v22 (broadcastInDim S8192x1 ![0] bcast_S8192_S8192x1_0),
    StableHlo.binary main_v2 main_v22 main_v23 ((fun x i => Host.gather gather_S4096x1024_S8192x1_S4096x8192_0_1_n_n_1_1_40961 x i)),
    StableHlo.nullary main_c_5 (constantI S_ 32 0#32),
    StableHlo.unary main_c_5 main_v24 (broadcastInDim S8192 ![] bcast_S_S8192),
    StableHlo.binary main_arg5 main_v24 main_v25 (cmpi .slt),
    StableHlo.nullary main_c_6 (constantI S_ 32 1024#32),
    StableHlo.unary main_c_6 main_v26 (broadcastInDim S8192 ![] bcast_S_S8192),
    StableHlo.binary main_arg5 main_v26 main_v27 (addi),
    StableHlo.ternary main_v25 main_v27 main_arg5 main_v28 (select),
    StableHlo.unary main_v28 main_v29 (broadcastInDim S8192x1 ![0] bcast_S8192_S8192x1_0),
    StableHlo.binary main_v2 main_v29 main_v30 ((fun x i => Host.gather gather_S4096x1024_S8192x1_S4096x8192_0_1_n_n_1_1_40961 x i)),
    StableHlo.unary main_v16 main_v31 ((extractStridedSlice S8192x1 ![0, 0] · slices_S8192x4_S8192x1_0_0)),
    StableHlo.reshape main_v31 main_v32 rfl shapeCasts_S8192x1_S8192,
    StableHlo.unary main_v16 main_v33 ((extractStridedSlice S8192x1 ![0, 1] · slices_S8192x4_S8192x1_0_1)),
    StableHlo.reshape main_v33 main_v34 rfl shapeCasts_S8192x1_S8192,
    StableHlo.unary main_v34 main_v35 (broadcastInDim S1x8192 ![1] bcast_S8192_S1x8192_1),
    StableHlo.unary main_v35 main_v36 (broadcastInDim S4096x8192 ![0, 1] bcast_S1x8192_S4096x8192_0_1),
    StableHlo.binary main_v36 main_v23 main_v37 (mulf),
    StableHlo.unary main_v32 main_v38 (broadcastInDim S1x8192 ![1] bcast_S8192_S1x8192_1),
    StableHlo.unary main_v38 main_v39 (broadcastInDim S4096x8192 ![0, 1] bcast_S1x8192_S4096x8192_0_1),
    StableHlo.binary main_v39 main_v37 main_v40 (addf),
    StableHlo.unary main_v16 main_v41 ((extractStridedSlice S8192x1 ![0, 2] · slices_S8192x4_S8192x1_0_2)),
    StableHlo.reshape main_v41 main_v42 rfl shapeCasts_S8192x1_S8192,
    StableHlo.unary main_v42 main_v43 (broadcastInDim S1x8192 ![1] bcast_S8192_S1x8192_1),
    StableHlo.unary main_v43 main_v44 (broadcastInDim S4096x8192 ![0, 1] bcast_S1x8192_S4096x8192_0_1),
    StableHlo.binary main_v44 main_v30 main_v45 (mulf),
    StableHlo.binary main_v40 main_v45 main_v46 (addf),
    StableHlo.unary main_v16 main_v47 ((extractStridedSlice S8192x1 ![0, 3] · slices_S8192x4_S8192x1_0_3)),
    StableHlo.reshape main_v47 main_v48 rfl shapeCasts_S8192x1_S8192,
    StableHlo.binary main_v23 main_v30 main_v49 (mulf),
    StableHlo.unary main_v48 main_v50 (broadcastInDim S1x8192 ![1] bcast_S8192_S1x8192_1),
    StableHlo.unary main_v50 main_v51 (broadcastInDim S4096x8192 ![0, 1] bcast_S1x8192_S4096x8192_0_1),
    StableHlo.binary main_v51 main_v49 main_v52 (mulf),
    StableHlo.binary main_v46 main_v52 main_v53 (addf) ]

abbrev L1 : List (HloOp τ sig (Elt F)) :=
  [ StableHlo.unary main_arg1 main_v54 ((extractStridedSlice S1x8192x16 ![1, 0, 0] · slices_S6x8192x16_S1x8192x16_1_0_0)),
    StableHlo.reshape main_v54 main_v55 rfl shapeCasts_S1x8192x16_S8192x16,
    StableHlo.unary main_arg6 main_v56 ((extractStridedSlice S1x8192 ![0, 0] · slices_S5x8192_S1x8192_0_0)),
    StableHlo.reshape main_v56 main_v57 rfl shapeCasts_S1x8192_S8192,
    StableHlo.unary main_arg7 main_v58 ((extractStridedSlice S1x8192 ![0, 0] · slices_S5x8192_S1x8192_0_0)),
    StableHlo.reshape main_v58 main_v59 rfl shapeCasts_S1x8192_S8192,
    StableHlo.nullary main_cst_7 (constant S_ .f32 0xFF800000#32),
    StableHlo.binary main_v55 main_cst_7 main_v60 ((fun x v => Host.reduce FloatOps.maximumf x v reducesTo_S8192x16_S8192_d1 h_S_)),
    StableHlo.nullary main_cst_8 (constant S_ .f32 0xFF800000#32),
    StableHlo.unary main_cst_8 main_v61 (broadcastInDim S8192 ![] bcast_S_S8192),
    StableHlo.binary main_v61 main_v60 main_v62 (maximumf),
    StableHlo.unary main_v62 main_v63 (broadcastInDim S8192x1 ![0] bcast_S8192_S8192x1_0),
    StableHlo.unary main_v63 main_v64 (broadcastInDim S8192x16 ![0, 1] bcast_S8192x1_S8192x16_0_1),
    StableHlo.binary main_v55 main_v64 main_v65 (subf),
    StableHlo.unary main_v65 main_v66 (Host.exp),
    StableHlo.nullary main_cst_9 (constant S_ .f32 0x00000000#32),
    StableHlo.binary main_v66 main_cst_9 main_v67 ((fun x v => Host.reduceAdd x v reducesTo_S8192x16_S8192_d1 h_S_)),
    StableHlo.unary main_v67 main_v68 (broadcastInDim S8192x1 ![0] bcast_S8192_S8192x1_0),
    StableHlo.unary main_v68 main_v69 (broadcastInDim S8192x16 ![0, 1] bcast_S8192x1_S8192x16_0_1),
    StableHlo.binary main_v66 main_v69 main_v70 (Host.divf),
    StableHlo.binary main_v70 main_cst main_v71 ((fun l r => Host.dotGeneral dot_S8192x16_S16x4_S8192x4_1_0_0_1_n_n none l r)),
    StableHlo.nullary main_c_10 (constantI S_ 32 0#32),
    StableHlo.unary main_c_10 main_v72 (broadcastInDim S8192 ![] bcast_S_S8192),
    StableHlo.binary main_v57 main_v72 main_v73 (cmpi .slt),
    StableHlo.nullary main_c_11 (constantI S_ 32 8192#32),
    StableHlo.unary main_c_11 main_v74 (broadcastInDim S8192 ![] bcast_S_S8192),
    StableHlo.binary main_v57 main_v74 main_v75 (addi),
    StableHlo.ternary main_v73 main_v75 main_v57 main_v76 (select),
    StableHlo.unary main_v76 main_v77 (broadcastInDim S8192x1 ![0] bcast_S8192_S8192x1_0),
    StableHlo.binary main_v53 main_v77 main_v78 ((fun x i => Host.gather gather_S4096x8192_S8192x1_S4096x8192_0_1_n_n_1_1_40961 x i)),
    StableHlo.nullary main_c_12 (constantI S_ 32 0#32),
    StableHlo.unary main_c_12 main_v79 (broadcastInDim S8192 ![] bcast_S_S8192),
    StableHlo.binary main_v59 main_v79 main_v80 (cmpi .slt),
    StableHlo.nullary main_c_13 (constantI S_ 32 8192#32),
    StableHlo.unary main_c_13 main_v81 (broadcastInDim S8192 ![] bcast_S_S8192),
    StableHlo.binary main_v59 main_v81 main_v82 (addi),
    StableHlo.ternary main_v80 main_v82 main_v59 main_v83 (select),
    StableHlo.unary main_v83 main_v84 (broadcastInDim S8192x1 ![0] bcast_S8192_S8192x1_0),
    StableHlo.binary main_v53 main_v84 main_v85 ((fun x i => Host.gather gather_S4096x8192_S8192x1_S4096x8192_0_1_n_n_1_1_40961 x i)),
    StableHlo.unary main_v71 main_v86 ((extractStridedSlice S8192x1 ![0, 0] · slices_S8192x4_S8192x1_0_0)),
    StableHlo.reshape main_v86 main_v87 rfl shapeCasts_S8192x1_S8192,
    StableHlo.unary main_v71 main_v88 ((extractStridedSlice S8192x1 ![0, 1] · slices_S8192x4_S8192x1_0_1)),
    StableHlo.reshape main_v88 main_v89 rfl shapeCasts_S8192x1_S8192,
    StableHlo.unary main_v89 main_v90 (broadcastInDim S1x8192 ![1] bcast_S8192_S1x8192_1),
    StableHlo.unary main_v90 main_v91 (broadcastInDim S4096x8192 ![0, 1] bcast_S1x8192_S4096x8192_0_1),
    StableHlo.binary main_v91 main_v78 main_v92 (mulf),
    StableHlo.unary main_v87 main_v93 (broadcastInDim S1x8192 ![1] bcast_S8192_S1x8192_1),
    StableHlo.unary main_v93 main_v94 (broadcastInDim S4096x8192 ![0, 1] bcast_S1x8192_S4096x8192_0_1),
    StableHlo.binary main_v94 main_v92 main_v95 (addf),
    StableHlo.unary main_v71 main_v96 ((extractStridedSlice S8192x1 ![0, 2] · slices_S8192x4_S8192x1_0_2)),
    StableHlo.reshape main_v96 main_v97 rfl shapeCasts_S8192x1_S8192,
    StableHlo.unary main_v97 main_v98 (broadcastInDim S1x8192 ![1] bcast_S8192_S1x8192_1),
    StableHlo.unary main_v98 main_v99 (broadcastInDim S4096x8192 ![0, 1] bcast_S1x8192_S4096x8192_0_1),
    StableHlo.binary main_v99 main_v85 main_v100 (mulf),
    StableHlo.binary main_v95 main_v100 main_v101 (addf),
    StableHlo.unary main_v71 main_v102 ((extractStridedSlice S8192x1 ![0, 3] · slices_S8192x4_S8192x1_0_3)),
    StableHlo.reshape main_v102 main_v103 rfl shapeCasts_S8192x1_S8192,
    StableHlo.binary main_v78 main_v85 main_v104 (mulf),
    StableHlo.unary main_v103 main_v105 (broadcastInDim S1x8192 ![1] bcast_S8192_S1x8192_1),
    StableHlo.unary main_v105 main_v106 (broadcastInDim S4096x8192 ![0, 1] bcast_S1x8192_S4096x8192_0_1),
    StableHlo.binary main_v106 main_v104 main_v107 (mulf),
    StableHlo.binary main_v101 main_v107 main_v108 (addf) ]

abbrev L2 : List (HloOp τ sig (Elt F)) :=
  [ StableHlo.unary main_arg1 main_v109 ((extractStridedSlice S1x8192x16 ![2, 0, 0] · slices_S6x8192x16_S1x8192x16_2_0_0)),
    StableHlo.reshape main_v109 main_v110 rfl shapeCasts_S1x8192x16_S8192x16,
    StableHlo.unary main_arg6 main_v111 ((extractStridedSlice S1x8192 ![1, 0] · slices_S5x8192_S1x8192_1_0)),
    StableHlo.reshape main_v111 main_v112 rfl shapeCasts_S1x8192_S8192,
    StableHlo.unary main_arg7 main_v113 ((extractStridedSlice S1x8192 ![1, 0] · slices_S5x8192_S1x8192_1_0)),
    StableHlo.reshape main_v113 main_v114 rfl shapeCasts_S1x8192_S8192,
    StableHlo.nullary main_cst_14 (constant S_ .f32 0xFF800000#32),
    StableHlo.binary main_v110 main_cst_14 main_v115 ((fun x v => Host.reduce FloatOps.maximumf x v reducesTo_S8192x16_S8192_d1 h_S_)),
    StableHlo.nullary main_cst_15 (constant S_ .f32 0xFF800000#32),
    StableHlo.unary main_cst_15 main_v116 (broadcastInDim S8192 ![] bcast_S_S8192),
    StableHlo.binary main_v116 main_v115 main_v117 (maximumf),
    StableHlo.unary main_v117 main_v118 (broadcastInDim S8192x1 ![0] bcast_S8192_S8192x1_0),
    StableHlo.unary main_v118 main_v119 (broadcastInDim S8192x16 ![0, 1] bcast_S8192x1_S8192x16_0_1),
    StableHlo.binary main_v110 main_v119 main_v120 (subf),
    StableHlo.unary main_v120 main_v121 (Host.exp),
    StableHlo.nullary main_cst_16 (constant S_ .f32 0x00000000#32),
    StableHlo.binary main_v121 main_cst_16 main_v122 ((fun x v => Host.reduceAdd x v reducesTo_S8192x16_S8192_d1 h_S_)),
    StableHlo.unary main_v122 main_v123 (broadcastInDim S8192x1 ![0] bcast_S8192_S8192x1_0),
    StableHlo.unary main_v123 main_v124 (broadcastInDim S8192x16 ![0, 1] bcast_S8192x1_S8192x16_0_1),
    StableHlo.binary main_v121 main_v124 main_v125 (Host.divf),
    StableHlo.binary main_v125 main_cst main_v126 ((fun l r => Host.dotGeneral dot_S8192x16_S16x4_S8192x4_1_0_0_1_n_n none l r)),
    StableHlo.nullary main_c_17 (constantI S_ 32 0#32),
    StableHlo.unary main_c_17 main_v127 (broadcastInDim S8192 ![] bcast_S_S8192),
    StableHlo.binary main_v112 main_v127 main_v128 (cmpi .slt),
    StableHlo.nullary main_c_18 (constantI S_ 32 8192#32),
    StableHlo.unary main_c_18 main_v129 (broadcastInDim S8192 ![] bcast_S_S8192),
    StableHlo.binary main_v112 main_v129 main_v130 (addi),
    StableHlo.ternary main_v128 main_v130 main_v112 main_v131 (select),
    StableHlo.unary main_v131 main_v132 (broadcastInDim S8192x1 ![0] bcast_S8192_S8192x1_0),
    StableHlo.binary main_v108 main_v132 main_v133 ((fun x i => Host.gather gather_S4096x8192_S8192x1_S4096x8192_0_1_n_n_1_1_40961 x i)),
    StableHlo.nullary main_c_19 (constantI S_ 32 0#32),
    StableHlo.unary main_c_19 main_v134 (broadcastInDim S8192 ![] bcast_S_S8192),
    StableHlo.binary main_v114 main_v134 main_v135 (cmpi .slt),
    StableHlo.nullary main_c_20 (constantI S_ 32 8192#32),
    StableHlo.unary main_c_20 main_v136 (broadcastInDim S8192 ![] bcast_S_S8192),
    StableHlo.binary main_v114 main_v136 main_v137 (addi),
    StableHlo.ternary main_v135 main_v137 main_v114 main_v138 (select),
    StableHlo.unary main_v138 main_v139 (broadcastInDim S8192x1 ![0] bcast_S8192_S8192x1_0),
    StableHlo.binary main_v108 main_v139 main_v140 ((fun x i => Host.gather gather_S4096x8192_S8192x1_S4096x8192_0_1_n_n_1_1_40961 x i)),
    StableHlo.unary main_v126 main_v141 ((extractStridedSlice S8192x1 ![0, 0] · slices_S8192x4_S8192x1_0_0)),
    StableHlo.reshape main_v141 main_v142 rfl shapeCasts_S8192x1_S8192,
    StableHlo.unary main_v126 main_v143 ((extractStridedSlice S8192x1 ![0, 1] · slices_S8192x4_S8192x1_0_1)),
    StableHlo.reshape main_v143 main_v144 rfl shapeCasts_S8192x1_S8192,
    StableHlo.unary main_v144 main_v145 (broadcastInDim S1x8192 ![1] bcast_S8192_S1x8192_1),
    StableHlo.unary main_v145 main_v146 (broadcastInDim S4096x8192 ![0, 1] bcast_S1x8192_S4096x8192_0_1),
    StableHlo.binary main_v146 main_v133 main_v147 (mulf),
    StableHlo.unary main_v142 main_v148 (broadcastInDim S1x8192 ![1] bcast_S8192_S1x8192_1),
    StableHlo.unary main_v148 main_v149 (broadcastInDim S4096x8192 ![0, 1] bcast_S1x8192_S4096x8192_0_1),
    StableHlo.binary main_v149 main_v147 main_v150 (addf),
    StableHlo.unary main_v126 main_v151 ((extractStridedSlice S8192x1 ![0, 2] · slices_S8192x4_S8192x1_0_2)),
    StableHlo.reshape main_v151 main_v152 rfl shapeCasts_S8192x1_S8192,
    StableHlo.unary main_v152 main_v153 (broadcastInDim S1x8192 ![1] bcast_S8192_S1x8192_1),
    StableHlo.unary main_v153 main_v154 (broadcastInDim S4096x8192 ![0, 1] bcast_S1x8192_S4096x8192_0_1),
    StableHlo.binary main_v154 main_v140 main_v155 (mulf),
    StableHlo.binary main_v150 main_v155 main_v156 (addf),
    StableHlo.unary main_v126 main_v157 ((extractStridedSlice S8192x1 ![0, 3] · slices_S8192x4_S8192x1_0_3)),
    StableHlo.reshape main_v157 main_v158 rfl shapeCasts_S8192x1_S8192,
    StableHlo.binary main_v133 main_v140 main_v159 (mulf),
    StableHlo.unary main_v158 main_v160 (broadcastInDim S1x8192 ![1] bcast_S8192_S1x8192_1),
    StableHlo.unary main_v160 main_v161 (broadcastInDim S4096x8192 ![0, 1] bcast_S1x8192_S4096x8192_0_1),
    StableHlo.binary main_v161 main_v159 main_v162 (mulf),
    StableHlo.binary main_v156 main_v162 main_v163 (addf) ]

abbrev L3 : List (HloOp τ sig (Elt F)) :=
  [ StableHlo.unary main_arg1 main_v164 ((extractStridedSlice S1x8192x16 ![3, 0, 0] · slices_S6x8192x16_S1x8192x16_3_0_0)),
    StableHlo.reshape main_v164 main_v165 rfl shapeCasts_S1x8192x16_S8192x16,
    StableHlo.unary main_arg6 main_v166 ((extractStridedSlice S1x8192 ![2, 0] · slices_S5x8192_S1x8192_2_0)),
    StableHlo.reshape main_v166 main_v167 rfl shapeCasts_S1x8192_S8192,
    StableHlo.unary main_arg7 main_v168 ((extractStridedSlice S1x8192 ![2, 0] · slices_S5x8192_S1x8192_2_0)),
    StableHlo.reshape main_v168 main_v169 rfl shapeCasts_S1x8192_S8192,
    StableHlo.nullary main_cst_21 (constant S_ .f32 0xFF800000#32),
    StableHlo.binary main_v165 main_cst_21 main_v170 ((fun x v => Host.reduce FloatOps.maximumf x v reducesTo_S8192x16_S8192_d1 h_S_)),
    StableHlo.nullary main_cst_22 (constant S_ .f32 0xFF800000#32),
    StableHlo.unary main_cst_22 main_v171 (broadcastInDim S8192 ![] bcast_S_S8192),
    StableHlo.binary main_v171 main_v170 main_v172 (maximumf),
    StableHlo.unary main_v172 main_v173 (broadcastInDim S8192x1 ![0] bcast_S8192_S8192x1_0),
    StableHlo.unary main_v173 main_v174 (broadcastInDim S8192x16 ![0, 1] bcast_S8192x1_S8192x16_0_1),
    StableHlo.binary main_v165 main_v174 main_v175 (subf),
    StableHlo.unary main_v175 main_v176 (Host.exp),
    StableHlo.nullary main_cst_23 (constant S_ .f32 0x00000000#32),
    StableHlo.binary main_v176 main_cst_23 main_v177 ((fun x v => Host.reduceAdd x v reducesTo_S8192x16_S8192_d1 h_S_)),
    StableHlo.unary main_v177 main_v178 (broadcastInDim S8192x1 ![0] bcast_S8192_S8192x1_0),
    StableHlo.unary main_v178 main_v179 (broadcastInDim S8192x16 ![0, 1] bcast_S8192x1_S8192x16_0_1),
    StableHlo.binary main_v176 main_v179 main_v180 (Host.divf),
    StableHlo.binary main_v180 main_cst main_v181 ((fun l r => Host.dotGeneral dot_S8192x16_S16x4_S8192x4_1_0_0_1_n_n none l r)),
    StableHlo.nullary main_c_24 (constantI S_ 32 0#32),
    StableHlo.unary main_c_24 main_v182 (broadcastInDim S8192 ![] bcast_S_S8192),
    StableHlo.binary main_v167 main_v182 main_v183 (cmpi .slt),
    StableHlo.nullary main_c_25 (constantI S_ 32 8192#32),
    StableHlo.unary main_c_25 main_v184 (broadcastInDim S8192 ![] bcast_S_S8192),
    StableHlo.binary main_v167 main_v184 main_v185 (addi),
    StableHlo.ternary main_v183 main_v185 main_v167 main_v186 (select),
    StableHlo.unary main_v186 main_v187 (broadcastInDim S8192x1 ![0] bcast_S8192_S8192x1_0),
    StableHlo.binary main_v163 main_v187 main_v188 ((fun x i => Host.gather gather_S4096x8192_S8192x1_S4096x8192_0_1_n_n_1_1_40961 x i)),
    StableHlo.nullary main_c_26 (constantI S_ 32 0#32),
    StableHlo.unary main_c_26 main_v189 (broadcastInDim S8192 ![] bcast_S_S8192),
    StableHlo.binary main_v169 main_v189 main_v190 (cmpi .slt),
    StableHlo.nullary main_c_27 (constantI S_ 32 8192#32),
    StableHlo.unary main_c_27 main_v191 (broadcastInDim S8192 ![] bcast_S_S8192),
    StableHlo.binary main_v169 main_v191 main_v192 (addi),
    StableHlo.ternary main_v190 main_v192 main_v169 main_v193 (select),
    StableHlo.unary main_v193 main_v194 (broadcastInDim S8192x1 ![0] bcast_S8192_S8192x1_0),
    StableHlo.binary main_v163 main_v194 main_v195 ((fun x i => Host.gather gather_S4096x8192_S8192x1_S4096x8192_0_1_n_n_1_1_40961 x i)),
    StableHlo.unary main_v181 main_v196 ((extractStridedSlice S8192x1 ![0, 0] · slices_S8192x4_S8192x1_0_0)),
    StableHlo.reshape main_v196 main_v197 rfl shapeCasts_S8192x1_S8192,
    StableHlo.unary main_v181 main_v198 ((extractStridedSlice S8192x1 ![0, 1] · slices_S8192x4_S8192x1_0_1)),
    StableHlo.reshape main_v198 main_v199 rfl shapeCasts_S8192x1_S8192,
    StableHlo.unary main_v199 main_v200 (broadcastInDim S1x8192 ![1] bcast_S8192_S1x8192_1),
    StableHlo.unary main_v200 main_v201 (broadcastInDim S4096x8192 ![0, 1] bcast_S1x8192_S4096x8192_0_1),
    StableHlo.binary main_v201 main_v188 main_v202 (mulf),
    StableHlo.unary main_v197 main_v203 (broadcastInDim S1x8192 ![1] bcast_S8192_S1x8192_1),
    StableHlo.unary main_v203 main_v204 (broadcastInDim S4096x8192 ![0, 1] bcast_S1x8192_S4096x8192_0_1),
    StableHlo.binary main_v204 main_v202 main_v205 (addf),
    StableHlo.unary main_v181 main_v206 ((extractStridedSlice S8192x1 ![0, 2] · slices_S8192x4_S8192x1_0_2)),
    StableHlo.reshape main_v206 main_v207 rfl shapeCasts_S8192x1_S8192,
    StableHlo.unary main_v207 main_v208 (broadcastInDim S1x8192 ![1] bcast_S8192_S1x8192_1),
    StableHlo.unary main_v208 main_v209 (broadcastInDim S4096x8192 ![0, 1] bcast_S1x8192_S4096x8192_0_1),
    StableHlo.binary main_v209 main_v195 main_v210 (mulf),
    StableHlo.binary main_v205 main_v210 main_v211 (addf),
    StableHlo.unary main_v181 main_v212 ((extractStridedSlice S8192x1 ![0, 3] · slices_S8192x4_S8192x1_0_3)),
    StableHlo.reshape main_v212 main_v213 rfl shapeCasts_S8192x1_S8192,
    StableHlo.binary main_v188 main_v195 main_v214 (mulf),
    StableHlo.unary main_v213 main_v215 (broadcastInDim S1x8192 ![1] bcast_S8192_S1x8192_1),
    StableHlo.unary main_v215 main_v216 (broadcastInDim S4096x8192 ![0, 1] bcast_S1x8192_S4096x8192_0_1),
    StableHlo.binary main_v216 main_v214 main_v217 (mulf),
    StableHlo.binary main_v211 main_v217 main_v218 (addf) ]

abbrev L4 : List (HloOp τ sig (Elt F)) :=
  [ StableHlo.unary main_arg1 main_v219 ((extractStridedSlice S1x8192x16 ![4, 0, 0] · slices_S6x8192x16_S1x8192x16_4_0_0)),
    StableHlo.reshape main_v219 main_v220 rfl shapeCasts_S1x8192x16_S8192x16,
    StableHlo.unary main_arg6 main_v221 ((extractStridedSlice S1x8192 ![3, 0] · slices_S5x8192_S1x8192_3_0)),
    StableHlo.reshape main_v221 main_v222 rfl shapeCasts_S1x8192_S8192,
    StableHlo.unary main_arg7 main_v223 ((extractStridedSlice S1x8192 ![3, 0] · slices_S5x8192_S1x8192_3_0)),
    StableHlo.reshape main_v223 main_v224 rfl shapeCasts_S1x8192_S8192,
    StableHlo.nullary main_cst_28 (constant S_ .f32 0xFF800000#32),
    StableHlo.binary main_v220 main_cst_28 main_v225 ((fun x v => Host.reduce FloatOps.maximumf x v reducesTo_S8192x16_S8192_d1 h_S_)),
    StableHlo.nullary main_cst_29 (constant S_ .f32 0xFF800000#32),
    StableHlo.unary main_cst_29 main_v226 (broadcastInDim S8192 ![] bcast_S_S8192),
    StableHlo.binary main_v226 main_v225 main_v227 (maximumf),
    StableHlo.unary main_v227 main_v228 (broadcastInDim S8192x1 ![0] bcast_S8192_S8192x1_0),
    StableHlo.unary main_v228 main_v229 (broadcastInDim S8192x16 ![0, 1] bcast_S8192x1_S8192x16_0_1),
    StableHlo.binary main_v220 main_v229 main_v230 (subf),
    StableHlo.unary main_v230 main_v231 (Host.exp),
    StableHlo.nullary main_cst_30 (constant S_ .f32 0x00000000#32),
    StableHlo.binary main_v231 main_cst_30 main_v232 ((fun x v => Host.reduceAdd x v reducesTo_S8192x16_S8192_d1 h_S_)),
    StableHlo.unary main_v232 main_v233 (broadcastInDim S8192x1 ![0] bcast_S8192_S8192x1_0),
    StableHlo.unary main_v233 main_v234 (broadcastInDim S8192x16 ![0, 1] bcast_S8192x1_S8192x16_0_1),
    StableHlo.binary main_v231 main_v234 main_v235 (Host.divf),
    StableHlo.binary main_v235 main_cst main_v236 ((fun l r => Host.dotGeneral dot_S8192x16_S16x4_S8192x4_1_0_0_1_n_n none l r)),
    StableHlo.nullary main_c_31 (constantI S_ 32 0#32),
    StableHlo.unary main_c_31 main_v237 (broadcastInDim S8192 ![] bcast_S_S8192),
    StableHlo.binary main_v222 main_v237 main_v238 (cmpi .slt),
    StableHlo.nullary main_c_32 (constantI S_ 32 8192#32),
    StableHlo.unary main_c_32 main_v239 (broadcastInDim S8192 ![] bcast_S_S8192),
    StableHlo.binary main_v222 main_v239 main_v240 (addi),
    StableHlo.ternary main_v238 main_v240 main_v222 main_v241 (select),
    StableHlo.unary main_v241 main_v242 (broadcastInDim S8192x1 ![0] bcast_S8192_S8192x1_0),
    StableHlo.binary main_v218 main_v242 main_v243 ((fun x i => Host.gather gather_S4096x8192_S8192x1_S4096x8192_0_1_n_n_1_1_40961 x i)),
    StableHlo.nullary main_c_33 (constantI S_ 32 0#32),
    StableHlo.unary main_c_33 main_v244 (broadcastInDim S8192 ![] bcast_S_S8192),
    StableHlo.binary main_v224 main_v244 main_v245 (cmpi .slt),
    StableHlo.nullary main_c_34 (constantI S_ 32 8192#32),
    StableHlo.unary main_c_34 main_v246 (broadcastInDim S8192 ![] bcast_S_S8192),
    StableHlo.binary main_v224 main_v246 main_v247 (addi),
    StableHlo.ternary main_v245 main_v247 main_v224 main_v248 (select),
    StableHlo.unary main_v248 main_v249 (broadcastInDim S8192x1 ![0] bcast_S8192_S8192x1_0),
    StableHlo.binary main_v218 main_v249 main_v250 ((fun x i => Host.gather gather_S4096x8192_S8192x1_S4096x8192_0_1_n_n_1_1_40961 x i)),
    StableHlo.unary main_v236 main_v251 ((extractStridedSlice S8192x1 ![0, 0] · slices_S8192x4_S8192x1_0_0)),
    StableHlo.reshape main_v251 main_v252 rfl shapeCasts_S8192x1_S8192,
    StableHlo.unary main_v236 main_v253 ((extractStridedSlice S8192x1 ![0, 1] · slices_S8192x4_S8192x1_0_1)),
    StableHlo.reshape main_v253 main_v254 rfl shapeCasts_S8192x1_S8192,
    StableHlo.unary main_v254 main_v255 (broadcastInDim S1x8192 ![1] bcast_S8192_S1x8192_1),
    StableHlo.unary main_v255 main_v256 (broadcastInDim S4096x8192 ![0, 1] bcast_S1x8192_S4096x8192_0_1),
    StableHlo.binary main_v256 main_v243 main_v257 (mulf),
    StableHlo.unary main_v252 main_v258 (broadcastInDim S1x8192 ![1] bcast_S8192_S1x8192_1),
    StableHlo.unary main_v258 main_v259 (broadcastInDim S4096x8192 ![0, 1] bcast_S1x8192_S4096x8192_0_1),
    StableHlo.binary main_v259 main_v257 main_v260 (addf),
    StableHlo.unary main_v236 main_v261 ((extractStridedSlice S8192x1 ![0, 2] · slices_S8192x4_S8192x1_0_2)),
    StableHlo.reshape main_v261 main_v262 rfl shapeCasts_S8192x1_S8192,
    StableHlo.unary main_v262 main_v263 (broadcastInDim S1x8192 ![1] bcast_S8192_S1x8192_1),
    StableHlo.unary main_v263 main_v264 (broadcastInDim S4096x8192 ![0, 1] bcast_S1x8192_S4096x8192_0_1),
    StableHlo.binary main_v264 main_v250 main_v265 (mulf),
    StableHlo.binary main_v260 main_v265 main_v266 (addf),
    StableHlo.unary main_v236 main_v267 ((extractStridedSlice S8192x1 ![0, 3] · slices_S8192x4_S8192x1_0_3)),
    StableHlo.reshape main_v267 main_v268 rfl shapeCasts_S8192x1_S8192,
    StableHlo.binary main_v243 main_v250 main_v269 (mulf),
    StableHlo.unary main_v268 main_v270 (broadcastInDim S1x8192 ![1] bcast_S8192_S1x8192_1),
    StableHlo.unary main_v270 main_v271 (broadcastInDim S4096x8192 ![0, 1] bcast_S1x8192_S4096x8192_0_1),
    StableHlo.binary main_v271 main_v269 main_v272 (mulf),
    StableHlo.binary main_v266 main_v272 main_v273 (addf) ]

abbrev L5 : List (HloOp τ sig (Elt F)) :=
  [ StableHlo.unary main_arg1 main_v274 ((extractStridedSlice S1x8192x16 ![5, 0, 0] · slices_S6x8192x16_S1x8192x16_5_0_0)),
    StableHlo.reshape main_v274 main_v275 rfl shapeCasts_S1x8192x16_S8192x16,
    StableHlo.unary main_arg6 main_v276 ((extractStridedSlice S1x8192 ![4, 0] · slices_S5x8192_S1x8192_4_0)),
    StableHlo.reshape main_v276 main_v277 rfl shapeCasts_S1x8192_S8192,
    StableHlo.unary main_arg7 main_v278 ((extractStridedSlice S1x8192 ![4, 0] · slices_S5x8192_S1x8192_4_0)),
    StableHlo.reshape main_v278 main_v279 rfl shapeCasts_S1x8192_S8192,
    StableHlo.nullary main_cst_35 (constant S_ .f32 0xFF800000#32),
    StableHlo.binary main_v275 main_cst_35 main_v280 ((fun x v => Host.reduce FloatOps.maximumf x v reducesTo_S8192x16_S8192_d1 h_S_)),
    StableHlo.nullary main_cst_36 (constant S_ .f32 0xFF800000#32),
    StableHlo.unary main_cst_36 main_v281 (broadcastInDim S8192 ![] bcast_S_S8192),
    StableHlo.binary main_v281 main_v280 main_v282 (maximumf),
    StableHlo.unary main_v282 main_v283 (broadcastInDim S8192x1 ![0] bcast_S8192_S8192x1_0),
    StableHlo.unary main_v283 main_v284 (broadcastInDim S8192x16 ![0, 1] bcast_S8192x1_S8192x16_0_1),
    StableHlo.binary main_v275 main_v284 main_v285 (subf),
    StableHlo.unary main_v285 main_v286 (Host.exp),
    StableHlo.nullary main_cst_37 (constant S_ .f32 0x00000000#32),
    StableHlo.binary main_v286 main_cst_37 main_v287 ((fun x v => Host.reduceAdd x v reducesTo_S8192x16_S8192_d1 h_S_)),
    StableHlo.unary main_v287 main_v288 (broadcastInDim S8192x1 ![0] bcast_S8192_S8192x1_0),
    StableHlo.unary main_v288 main_v289 (broadcastInDim S8192x16 ![0, 1] bcast_S8192x1_S8192x16_0_1),
    StableHlo.binary main_v286 main_v289 main_v290 (Host.divf),
    StableHlo.binary main_v290 main_cst main_v291 ((fun l r => Host.dotGeneral dot_S8192x16_S16x4_S8192x4_1_0_0_1_n_n none l r)),
    StableHlo.nullary main_c_38 (constantI S_ 32 0#32),
    StableHlo.unary main_c_38 main_v292 (broadcastInDim S8192 ![] bcast_S_S8192),
    StableHlo.binary main_v277 main_v292 main_v293 (cmpi .slt),
    StableHlo.nullary main_c_39 (constantI S_ 32 8192#32),
    StableHlo.unary main_c_39 main_v294 (broadcastInDim S8192 ![] bcast_S_S8192),
    StableHlo.binary main_v277 main_v294 main_v295 (addi),
    StableHlo.ternary main_v293 main_v295 main_v277 main_v296 (select),
    StableHlo.unary main_v296 main_v297 (broadcastInDim S8192x1 ![0] bcast_S8192_S8192x1_0),
    StableHlo.binary main_v273 main_v297 main_v298 ((fun x i => Host.gather gather_S4096x8192_S8192x1_S4096x8192_0_1_n_n_1_1_40961 x i)),
    StableHlo.nullary main_c_40 (constantI S_ 32 0#32),
    StableHlo.unary main_c_40 main_v299 (broadcastInDim S8192 ![] bcast_S_S8192),
    StableHlo.binary main_v279 main_v299 main_v300 (cmpi .slt),
    StableHlo.nullary main_c_41 (constantI S_ 32 8192#32),
    StableHlo.unary main_c_41 main_v301 (broadcastInDim S8192 ![] bcast_S_S8192),
    StableHlo.binary main_v279 main_v301 main_v302 (addi),
    StableHlo.ternary main_v300 main_v302 main_v279 main_v303 (select),
    StableHlo.unary main_v303 main_v304 (broadcastInDim S8192x1 ![0] bcast_S8192_S8192x1_0),
    StableHlo.binary main_v273 main_v304 main_v305 ((fun x i => Host.gather gather_S4096x8192_S8192x1_S4096x8192_0_1_n_n_1_1_40961 x i)),
    StableHlo.unary main_v291 main_v306 ((extractStridedSlice S8192x1 ![0, 0] · slices_S8192x4_S8192x1_0_0)),
    StableHlo.reshape main_v306 main_v307 rfl shapeCasts_S8192x1_S8192,
    StableHlo.unary main_v291 main_v308 ((extractStridedSlice S8192x1 ![0, 1] · slices_S8192x4_S8192x1_0_1)),
    StableHlo.reshape main_v308 main_v309 rfl shapeCasts_S8192x1_S8192,
    StableHlo.unary main_v309 main_v310 (broadcastInDim S1x8192 ![1] bcast_S8192_S1x8192_1),
    StableHlo.unary main_v310 main_v311 (broadcastInDim S4096x8192 ![0, 1] bcast_S1x8192_S4096x8192_0_1),
    StableHlo.binary main_v311 main_v298 main_v312 (mulf),
    StableHlo.unary main_v307 main_v313 (broadcastInDim S1x8192 ![1] bcast_S8192_S1x8192_1),
    StableHlo.unary main_v313 main_v314 (broadcastInDim S4096x8192 ![0, 1] bcast_S1x8192_S4096x8192_0_1),
    StableHlo.binary main_v314 main_v312 main_v315 (addf),
    StableHlo.unary main_v291 main_v316 ((extractStridedSlice S8192x1 ![0, 2] · slices_S8192x4_S8192x1_0_2)),
    StableHlo.reshape main_v316 main_v317 rfl shapeCasts_S8192x1_S8192,
    StableHlo.unary main_v317 main_v318 (broadcastInDim S1x8192 ![1] bcast_S8192_S1x8192_1),
    StableHlo.unary main_v318 main_v319 (broadcastInDim S4096x8192 ![0, 1] bcast_S1x8192_S4096x8192_0_1),
    StableHlo.binary main_v319 main_v305 main_v320 (mulf),
    StableHlo.binary main_v315 main_v320 main_v321 (addf),
    StableHlo.unary main_v291 main_v322 ((extractStridedSlice S8192x1 ![0, 3] · slices_S8192x4_S8192x1_0_3)),
    StableHlo.reshape main_v322 main_v323 rfl shapeCasts_S8192x1_S8192,
    StableHlo.binary main_v298 main_v305 main_v324 (mulf),
    StableHlo.unary main_v323 main_v325 (broadcastInDim S1x8192 ![1] bcast_S8192_S1x8192_1),
    StableHlo.unary main_v325 main_v326 (broadcastInDim S4096x8192 ![0, 1] bcast_S1x8192_S4096x8192_0_1),
    StableHlo.binary main_v326 main_v324 main_v327 (mulf),
    StableHlo.binary main_v321 main_v327 main_v328 (addf) ]

abbrev Lfin : List (HloOp τ sig (Elt F)) :=
  [ StableHlo.reshape main_v328 main_v329 rfl shapeCasts_S4096x8192_S4096x8x1024,
    StableHlo.nullary main_cst_42 (constant S_ .f32 0x00000000#32),
    StableHlo.binary main_v329 main_cst_42 main_v330 ((fun x v => Host.reduceAdd x v reducesTo_S4096x8x1024_S4096x8_d2 h_S_)),
    StableHlo.nullary main_cst_43 (constant S_ .f32 0x41200000#32),
    StableHlo.unary main_cst_43 main_v331 (broadcastInDim S4096x8 ![] bcast_S_S4096x8),
    StableHlo.binary main_v330 main_v331 main_v332 (Host.divf),
    StableHlo.unary main_arg2 main_v333 ((transpose S8x8 [1, 0] · transposes_S8x8_S8x8_1_0)),
    StableHlo.binary main_v332 main_v333 main_v334 ((fun l r => Host.dotGeneral dot_S4096x8_S8x8_S4096x8_1_0_0_1_n_n none l r)),
    StableHlo.unary main_arg3 main_v335 (broadcastInDim S1x8 ![1] bcast_S8_S1x8_1),
    StableHlo.unary main_v335 main_v336 (broadcastInDim S4096x8 ![0, 1] bcast_S1x8_S4096x8_0_1),
    StableHlo.binary main_v334 main_v336 main_v337 (addf) ]

abbrev allLay : List (HloOp τ sig (Elt F)) := Lpre ++ (L0 ++ (L1 ++ (L2 ++ (L3 ++ (L4 ++ (L5 ++ Lfin))))))

-- The same statements cut sixty to a window, as the program's text is cut.
abbrev win0 : List (HloOp τ sig (Elt F)) := Lpre ++ L0.take 55
abbrev win1 : List (HloOp τ sig (Elt F)) := L0.drop 55 ++ L1.take 57
abbrev win2 : List (HloOp τ sig (Elt F)) := L1.drop 57 ++ L2.take 55
abbrev win3 : List (HloOp τ sig (Elt F)) := L2.drop 55 ++ L3.take 53
abbrev win4 : List (HloOp τ sig (Elt F)) := L3.drop 53 ++ L4.take 51
abbrev win5 : List (HloOp τ sig (Elt F)) := L4.drop 51 ++ L5.take 49
abbrev win6 : List (HloOp τ sig (Elt F)) := L5.drop 49 ++ Lfin

end Cert.ReferenceIdeal.Ops

end
-- ==== Proof.RefRun.lean ====
import proofs.«416395_j89292370084186_2_alg».proof.Proof.RefOps
import Idealize.ShloMosaic.Lib.StableHlo.Run
import Idealize.ShloMosaic.Lib.Pipeline.Regions

noncomputable section

namespace Cert.ReferenceIdeal.Run

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

-- Each window of the program is the line of its statements: both sides unfold to one tree of requests.
theorem part_eq0 (c : Dev nD) : main_part0 (F := F) c = StableHlo.seq win0 := by chain_rfl
theorem part_eq1 (c : Dev nD) : main_part1 (F := F) c = StableHlo.seq win1 := by chain_rfl
theorem part_eq2 (c : Dev nD) : main_part2 (F := F) c = StableHlo.seq win2 := by chain_rfl
theorem part_eq3 (c : Dev nD) : main_part3 (F := F) c = StableHlo.seq win3 := by chain_rfl
theorem part_eq4 (c : Dev nD) : main_part4 (F := F) c = StableHlo.seq win4 := by chain_rfl
theorem part_eq5 (c : Dev nD) : main_part5 (F := F) c = StableHlo.seq win5 := by chain_rfl
theorem part_eq6 (c : Dev nD) : main_part6 (F := F) c = StableHlo.seq win6 := by chain_rfl

-- The windows one after another are all the statements, layer after layer.
theorem main_eq (c : Dev nD) : main (F := F) c = StableHlo.seq allLay := by
  unfold main
  rw [part_eq0, part_eq1, part_eq2, part_eq3, part_eq4, part_eq5, part_eq6]
  rw [show (allLay : List (HloOp τ sig (Elt F)))
        = win0 ++ (win1 ++ (win2 ++ (win3 ++ (win4 ++ (win5 ++ win6))))) by chain_rfl,
    StableHlo.seq_append win0, StableHlo.seq_append win1, StableHlo.seq_append win2, StableHlo.seq_append win3,
    StableHlo.seq_append win4, StableHlo.seq_append win5]

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

theorem after_allLay (V : Valuation τ sig (Elt F)) :
    StableHlo.after (allLay : List (HloOp τ sig (Elt F))) V
      = StableHlo.after Lfin (StableHlo.after L5 (StableHlo.after L4 (StableHlo.after L3 (StableHlo.after L2
        (StableHlo.after L1 (StableHlo.after L0 (StableHlo.after Lpre V))))))) := by
  rw [show (allLay : List (HloOp τ sig (Elt F)))
        = Lpre ++ (L0 ++ (L1 ++ (L2 ++ (L3 ++ (L4 ++ (L5 ++ Lfin)))))) from rfl,
    after_append Lpre, after_append L0, after_append L1, after_append L2, after_append L3, after_append L4,
    after_append L5]

theorem scopedRefs_eq : (Finset.univ.filter fun b : Ref sig .tc => b.isScoped) = ∅ := by decide
theorem scopedSems_eq : (Finset.univ.filter fun sm : SemLoc sig => sm.isScoped .tc) = ∅ := by decide

theorem allLay_sub : (allLay : List (HloOp τ sig (Elt F))).Forall fun op => op.bufs ⊆ StableHlo.tcRefs τ sig := by
  simp only [allLay, Lpre, L0, L1, L2, L3, L4, L5, Lfin, List.forall_append, List.Forall, StableHlo.nullary_bufs_sub,
    StableHlo.unary_bufs_sub, StableHlo.binary_bufs_sub, StableHlo.ternary_bufs_sub, StableHlo.reshape_bufs_sub, and_self]

theorem allLay_fresh : (allLay : List (HloOp τ sig (Elt F))).Forall fun op => op.fresh = ∅ := by
  simp only [allLay, Lpre, L0, L1, L2, L3, L4, L5, Lfin, List.forall_append, List.Forall]; repeat' constructor

-- Every statement writes a buffer named after the eight arguments, so the arguments end as launched.
theorem allLay_past : (allLay : List (HloOp τ sig (Elt F))).Forall fun op =>
    ∀ b ∈ op.writes, ∃ y : Ref sig .tc, 8 ≤ y.idx.val ∧ b = Proc.devRef (τ := τ) .tc y := by
  simp only [allLay, Lpre, L0, L1, L2, L3, L4, L5, Lfin, List.forall_append, List.Forall, StableHlo.nullary_writes,
    StableHlo.unary_writes, StableHlo.binary_writes, StableHlo.ternary_writes, StableHlo.reshape_writes,
    Finset.mem_singleton, forall_eq]
  repeat' apply And.intro
  all_goals exact ⟨_, by decide, rfl⟩

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = StableHlo.after Lfin (StableHlo.after L5 (StableHlo.after L4 (StableHlo.after L3 (StableHlo.after L2
        (StableHlo.after L1 (StableHlo.after L0 (StableHlo.after Lpre (StableHlo.launchContents m c))))))))
            (Proc.devRef .tc b) :=
  (θ_run defs _ _).mono (fun _ h c b => (h c b).trans (congrFun (after_allLay _) _))
    (StableHlo.run_seq scopedRefs_eq scopedSems_eq defs main (fun _ => allLay) main_eq (fun _ => allLay_sub) m ρ
      (hfresh := fun _ => List.forall_iff_forall_mem.mp allLay_fresh))

theorem run_arg (m : (ℓ : Loc nD τ sig) → Buf (Elt F) ℓ) (c : Dev nD) (r : Ref sig .tc) (hr : r.idx.val < 8) :
    StableHlo.after Lfin (StableHlo.after L5 (StableHlo.after L4 (StableHlo.after L3 (StableHlo.after L2
        (StableHlo.after L1 (StableHlo.after L0 (StableHlo.after Lpre (StableHlo.launchContents m c)))))))) (Proc.devRef .tc r)
      = m ((c.tc : Thread nD τ).loc r) := by
  rw [← after_allLay]
  exact StableHlo.after_of_forall_not_mem _ _ fun op hop hb => by
    obtain ⟨y, hy, e⟩ := List.forall_iff_forall_mem.mp allLay_past op hop _ hb
    have := Proc.devRef_injective _ e
    subst this; omega

end Cert.ReferenceIdeal.Run

end
-- ==== Proof.PreDecode.lean ====
import proofs.«416395_j89292370084186_2_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Logic

open Idealize.ShloMosaic Idealize.ShloMosaic.ValueIdx
open Cert.Pre_finite_inputs

instance instSubsingletonScalarIdx_PreDecode : Subsingleton Cert.Pre_finite_inputs.S_.Idx := ⟨fun a b => funext fun d => d.elim0⟩

theorem andi_at {s : Shape} (x y : IVec s 1) (i : s.Idx) (h : andi x y i = 1#1) : x i = 1#1 ∧ y i = 1#1 :=
  IntOp.andi_eq_one.1 h

theorem word_range (w : BitVec 32) (n : Nat) (hn : n < 2 ^ 31)
    (h0 : IntOp.cmpi .sge w 0#32 = 1#1) (h1 : IntOp.cmpi .slt w (BitVec.ofNat 32 n) = 1#1) :
    0 ≤ w.toInt ∧ w.toInt < (n : Int) := by
  have a0 := IntOp.cmpi_sge.1 h0
  have a1 := IntOp.cmpi_slt.1 h1
  rw [StableHlo.Predicate.toInt_ofNat_small n hn] at a1
  have z : (0#32 : BitVec 32).toInt = 0 := by decide
  rw [z] at a0
  exact ⟨a0, a1⟩

theorem elem_range {s : Shape} (hb : S_.BroadcastsInDim s (![] : Fin 0 → Fin s.rank)) (hS : 0 < S_.numel)
    (a : IVec s 32) (n : Nat) (hn : n < 2 ^ 31) (j : s.Idx)
    (e : andi (cmpi .sge a (broadcastInDim s ![] hb (constantI S_ 32 0#32)))
              (cmpi .slt a (broadcastInDim s ![] hb (constantI S_ 32 (BitVec.ofNat 32 n)))) j = 1#1) :
    0 ≤ (a j).toInt ∧ (a j).toInt < (n : Int) := by
  obtain ⟨h0, h1⟩ := andi_at _ _ _ e
  have h0' : IntOp.cmpi .sge (a j) (broadcastInDim s ![] hb (constantI S_ 32 0#32) j) = 1#1 := h0
  have h1' : IntOp.cmpi .slt (a j) (broadcastInDim s ![] hb (constantI S_ 32 (BitVec.ofNat 32 n)) j) = 1#1 := h1
  rw [StableHlo.Predicate.bcast_scalar hb hS] at h0' h1'
  exact word_range (a j) n hn h0' h1'

theorem all_range {s : Shape} {axes : List (Fin s.rank)} (hb : S_.BroadcastsInDim s (![] : Fin 0 → Fin s.rank))
    (hS : 0 < S_.numel) (hr : s.ReducesTo axes S_) (a : IVec s 32) (n : Nat) (hn : n < 2 ^ 31)
    (e : Host.reduce IntOp.andi
          (andi (cmpi .sge a (broadcastInDim s ![] hb (constantI S_ 32 0#32)))
                (cmpi .slt a (broadcastInDim s ![] hb (constantI S_ 32 (BitVec.ofNat 32 n)))))
          (constantI S_ 1 1#1) hr hS ix0 = 1#1) (j : s.Idx) :
    0 ≤ (a j).toInt ∧ (a j).toInt < (n : Int) :=
  elem_range hb hS a n hn j (Host.reduce_andi_all _ _ hr hS ix0 e j)

/-- The precondition puts every index word inside the axis it indexes. -/
theorem idx_ranges [Cert.Pre_finite_inputs.Facts]
    (a0 : FVec Ideal Cert.Pre_finite_inputs.S4096x1024 .f32) (a1 : FVec Ideal Cert.Pre_finite_inputs.S6x8192x16 .f32)
    (a2 : FVec Ideal Cert.Pre_finite_inputs.S8x8 .f32) (a3 : FVec Ideal Cert.Pre_finite_inputs.S8 .f32)
    (a4 a5 : IVec Cert.Pre_finite_inputs.S8192 32) (a6 a7 : IVec Cert.Pre_finite_inputs.S5x8192 32)
    (h : Cert.Pre_finite_inputs.fn (F := Ideal) a0 a1 a2 a3 a4 a5 a6 a7 = fun _ => 1#1) :
    (∀ j, 0 ≤ (a4 j).toInt ∧ (a4 j).toInt < 1024) ∧ (∀ j, 0 ≤ (a5 j).toInt ∧ (a5 j).toInt < 1024)
    ∧ (∀ j, 0 ≤ (a6 j).toInt ∧ (a6 j).toInt < 8192) ∧ (∀ j, 0 ≤ (a7 j).toInt ∧ (a7 j).toInt < 8192) := by
  have e := congrFun h ix0
  dsimp only [Cert.Pre_finite_inputs.fn, Cert.Pre_finite_inputs.fn_part1, Cert.Pre_finite_inputs.fn_part2] at e

  obtain ⟨e, h7⟩ := andi_at _ _ _ e
  obtain ⟨e, h6⟩ := andi_at _ _ _ e
  obtain ⟨e, h5⟩ := andi_at _ _ _ e
  obtain ⟨-, h4⟩ := andi_at _ _ _ e
  exact ⟨fun j => all_range Facts.bcast_S_S8192 Facts.h_S_ Facts.reducesTo_S8192_S_d0 a4 1024 (by decide) h4 j,
    fun j => all_range Facts.bcast_S_S8192 Facts.h_S_ Facts.reducesTo_S8192_S_d0 a5 1024 (by decide) h5 j,
    fun j => all_range Facts.bcast_S_S5x8192 Facts.h_S_ Facts.reducesTo_S5x8192_S_d0_1 a6 8192 (by decide) h6 j,
    fun j => all_range Facts.bcast_S_S5x8192 Facts.h_S_ Facts.reducesTo_S5x8192_S_d0_1 a7 8192 (by decide) h7 j⟩

end Cert.Logic

end
-- ==== Proof.Spec.lean ====
import Idealize.ShloMosaic.PureOps.Ideal
import Idealize.ShloMosaic.Lib.ValueIdx

noncomputable section

namespace Cert.Logic

open Idealize.ShloMosaic Idealize.ShloMosaic.ValueIdx

/-- A relaxed logic gate: the multilinear blend of its two inputs, grouped as both programs group it. -/
def mix (c0 c1 c2 c3 a b : EReal) : EReal := ((c0 + c1 * a) + c2 * b) + c3 * (a * b)

/-- A signed index word as a position on an axis of extent `n`, clamped into the axis as a gather's start index is. -/
def pos (n : Nat) (hn : 0 < n) (w : BitVec 32) : Fin n := ⟨min w.toInt.toNat (n - 1), by omega⟩

/-- A word already inside the axis is its own position. -/
theorem pos_val_of_range {n : Nat} (hn : 0 < n) (w : BitVec 32) (h0 : 0 ≤ w.toInt) (h1 : w.toInt < (n : Int)) :
    (pos n hn w).val = w.toInt.toNat := by
  unfold pos
  simp only
  omega

/-- Hidden unit `g·1024 + r` of group `g`. -/
def unit (g : Fin 8) (r : Fin 1024) : Fin 8192 := ⟨g.val * 1024 + r.val, by omega⟩

/-- The head: each group's sum scaled by a tenth, through the 8 × 8 linear map, plus the bias. -/
def headK (h : Fin 8192 → EReal) (w : Fin 8 → EReal) (b : EReal) : EReal :=
  (∑ g : Fin 8, w g * ((∑ r : Fin 1024, h (unit g r)) * ((1 / 10 : ℝ) : EReal))) + b

end Cert.Logic

end
-- ==== Proof.Bridge.lean ====
import proofs.«416395_j89292370084186_2_alg».proof.Proof.Spec

noncomputable section

namespace Cert.Logic

/-- Products of extended reals commute, so the head may multiply sum by weight or weight by sum. -/
theorem headK_comm (h : Fin 8192 → EReal) (w : Fin 8 → EReal) (b : EReal) :
    headK h w b = (∑ g : Fin 8, ((∑ r : Fin 1024, h (unit g r)) * ((1 / 10 : ℝ) : EReal)) * w g) + b := by
  unfold headK
  exact congrArg (· + b) (Finset.sum_congr rfl fun g _ => mul_comm _ _)

theorem headK_congr {h h' : Fin 8192 → EReal} {w w' : Fin 8 → EReal} {b b' : EReal}
    (hh : ∀ u, h u = h' u) (hw : ∀ g, w g = w' g) (hb : b = b') : headK h w b = headK h' w' b' := by
  have e1 : h = h' := funext hh
  have e2 : w = w' := funext hw
  rw [e1, e2, hb]

end Cert.Logic

end
-- ==== Proof.KHostTail.lean ====
import proofs.«416395_j89292370084186_2_alg».proof.Proof.Gen.KernelIdeal.Launch
import Idealize.ShloMosaic.Lib.StableHlo.Run
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.ValueIdx Idealize.ShloMosaic.StableHlo

theorem tail_col_apply (x : S8.Idx → EReal) (o : Fin 8) :
    shapeCast S8x1 x shapeCasts_S8_S8x1 (ix2 o (0 : Fin 1)) = x (ix1 o) := by
  refine shapeCast_apply x shapeCasts_S8_S8x1 (ix2 o (0 : Fin 1)) (ix1 o) ?_
  rw [Shape.rowMajor_val_two, Shape.rowMajor_val_one]
  show o.val = o.val * 1 + 0
  omega

variable (W : Valuation τ sig (Elt Ideal))

theorem tail_bias (o : Fin 8) :
    (StableHlo.after hostOps6 W (Proc.devRef .tc main_v150) : S8x1.Idx → EReal) (ix2 o (0 : Fin 1))
      = (W (Proc.devRef .tc main_arg3) : S8.Idx → EReal) (ix1 o) := by
  have e : (StableHlo.after hostOps6 W (Proc.devRef .tc main_v150) : S8x1.Idx → EReal)
      = shapeCast S8x1 (W (Proc.devRef .tc main_arg3) : S8.Idx → EReal) shapeCasts_S8_S8x1 := by
    after_results
    all_goals rfl
  rw [e]
  exact tail_col_apply _ o

theorem tail_keep6_v149 : StableHlo.after hostOps6 W (Proc.devRef .tc main_v149) = W (Proc.devRef .tc main_v149) := by
  after_results

theorem tail_keep6_arg2 : StableHlo.after hostOps6 W (Proc.devRef .tc main_arg2) = W (Proc.devRef .tc main_arg2) := by
  after_results

theorem tail_out (t : Fin 4096) (o : Fin 8) :
    (StableHlo.after hostOps7 W (Proc.devRef .tc main_v152) : S4096x8.Idx → EReal) (ix2 t o)
      = (W (Proc.devRef .tc main_v151) : S8x4096.Idx → EReal) (ix2 o t) := by
  have e : (StableHlo.after hostOps7 W (Proc.devRef .tc main_v152) : S4096x8.Idx → EReal)
      = transpose S4096x8 [1, 0] (W (Proc.devRef .tc main_v151) : S8x4096.Idx → EReal) transposes_S8x4096_S4096x8_1_0 := by
    after_results
    all_goals rfl
  rw [e]
  exact transpose_ix2_apply (a := 8) (b := 4096) _ transposes_S8x4096_S4096x8_1_0 t o

end Cert.KernelIdeal.HostValue

end
-- ==== Proof.Region6A.lean ====
import proofs.«416395_j89292370084186_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.RegionValue6

open Cert.KernelIdeal Cert.KernelIdeal.Gen Idealize.ShloMosaic Idealize.ShloMosaic.ValueIdx

abbrev Rows : Type := Vec Ideal S1024x256 .f32

abbrev Row : Type := FVec Ideal S1x256 .f32

abbrev tenth : EReal := ((1 / 10 : ℝ) : EReal)

theorem inv_10 : Named.named (F := Ideal) Cert.KernelIdeal.κ "inv_10" (φ := .f32) 0x3DCCCCCD#32 = tenth :=
  IdealRules.named_const.ideal_named_scalar _ _ _ _ rfl

def colSum (x : Rows) : Row :=
  shapeCast S1x256 (multiReduction (F := Ideal) .add [0] S256 (shapeCast S1024x256 x shapeCasts_S1024x256_S1024x256)
    0x00000000#32 reduces_S1024x256_S256 (.inl rfl) rfl) shapeCasts_S256_S1x256

theorem colSum_apply (x : Rows) (u : Fin 1) (q : Fin 256) : colSum x (ix2 u q) = ∑ r : Fin 1024, x (ix2 r q) := by
  unfold colSum
  rw [shapeCast_self]
  refine (shapeCast_a_1a_apply _ shapeCasts_S256_S1x256 u q).trans ?_
  refine (Ideal.multiReduction_add_single x 0x00000000#32 reduces_S1024x256_S256 (.inl rfl) rfl (ix1 q)).trans ?_
  exact Finset.sum_congr rfl fun r _ => congrArg x (funext fun a => match a with | ⟨0, _⟩ => rfl | ⟨1, _⟩ => rfl)

theorem pay2_apply (x : Rows) (u : Fin 1) (q : Fin 256) : k6_pay2 (F := Ideal) x (ix2 u q) = (∑ r : Fin 1024, x (ix2 r q)) * tenth := by
  show colSum x (ix2 u q) * Named.named (F := Ideal) Cert.KernelIdeal.κ "inv_10" (φ := .f32) 0x3DCCCCCD#32 = _
  rw [colSum_apply, inv_10]
theorem pay3_apply (x : Rows) (u : Fin 1) (q : Fin 256) : k6_pay3 (F := Ideal) x (ix2 u q) = (∑ r : Fin 1024, x (ix2 r q)) * tenth := by
  show colSum x (ix2 u q) * Named.named (F := Ideal) Cert.KernelIdeal.κ "inv_10" (φ := .f32) 0x3DCCCCCD#32 = _
  rw [colSum_apply, inv_10]
theorem pay4_apply (x : Rows) (u : Fin 1) (q : Fin 256) : k6_pay4 (F := Ideal) x (ix2 u q) = (∑ r : Fin 1024, x (ix2 r q)) * tenth := by
  show colSum x (ix2 u q) * Named.named (F := Ideal) Cert.KernelIdeal.κ "inv_10" (φ := .f32) 0x3DCCCCCD#32 = _
  rw [colSum_apply, inv_10]
theorem pay5_apply (x : Rows) (u : Fin 1) (q : Fin 256) : k6_pay5 (F := Ideal) x (ix2 u q) = (∑ r : Fin 1024, x (ix2 r q)) * tenth := by
  show colSum x (ix2 u q) * Named.named (F := Ideal) Cert.KernelIdeal.κ "inv_10" (φ := .f32) 0x3DCCCCCD#32 = _
  rw [colSum_apply, inv_10]
theorem pay6_apply (x : Rows) (u : Fin 1) (q : Fin 256) : k6_pay6 (F := Ideal) x (ix2 u q) = (∑ r : Fin 1024, x (ix2 r q)) * tenth := by
  show colSum x (ix2 u q) * Named.named (F := Ideal) Cert.KernelIdeal.κ "inv_10" (φ := .f32) 0x3DCCCCCD#32 = _
  rw [colSum_apply, inv_10]

theorem pay7_apply (x : Rows) (u : Fin 1) (q : Fin 256) : k6_pay7 (F := Ideal) x (ix2 u q) = ∑ r : Fin 1024, x (ix2 r q) :=
  colSum_apply x u q

theorem pay8_apply (j : S1x256.Idx) : k6_pay8 (F := Ideal) j = tenth := inv_10

end Cert.KernelIdeal.RegionValue6

end
-- ==== Proof.Region6B.lean ====
import proofs.«416395_j89292370084186_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue6

open Cert.KernelIdeal Cert.KernelIdeal.Gen Idealize.ShloMosaic Idealize.ShloMosaic.ValueIdx

abbrev Weight : Type := FVec Ideal S8x8 .f32
abbrev Stack : Type := FVec Ideal S8x256 .f32
abbrev Bias : Type := Vec Ideal S8x1 .f32

theorem stack_apply (v0 v1 v2 v3 v4 v5 v6 v7 : FVec Ideal S1x256 .f32) (g : Fin 8) (q : Fin 256) :
    concatenate S8x256 0 [⟨S1x256, v0⟩, ⟨S1x256, v1⟩, ⟨S1x256, v2⟩, ⟨S1x256, v3⟩, ⟨S1x256, v4⟩, ⟨S1x256, v5⟩, ⟨S1x256, v6⟩, ⟨S1x256, v7⟩]
        concatenates_S1x256_S1x256_S1x256_S1x256_S1x256_S1x256_S1x256_S1x256_S8x256_d0 (ix2 g q)
      = (![v0, v1, v2, v3, v4, v5, v6, v7] g) (ix2 (0 : Fin 1) q) :=
  concatenate_ofFn_unit_apply (t := S8x256) (s₁ := S1x256) 0 ![v0, v1, v2, v3, v4, v5, v6, v7]
    concatenates_S1x256_S1x256_S1x256_S1x256_S1x256_S1x256_S1x256_S1x256_S8x256_d0 rfl rfl (ix2 g q) g rfl (ix2 (0 : Fin 1) q)
    (fun b hb => match b, hb with
      | ⟨0, _⟩, hb => absurd rfl hb
      | ⟨1, _⟩, _ => rfl)

theorem lhs_dot_S8x8_S8x256_S8x256_1_0_0_1_n_n_0 (j : S8x256.Idx) (k : dot_S8x8_S8x256_S8x256_1_0_0_1_n_n.contr.Idx) :
    (dot_S8x8_S8x256_S8x256_1_0_0_1_n_n.lhsIdx j k 0).val = (j 0).val := by
  unfold DotDims.lhsIdx
  rw [dif_neg (show ¬(0 : Fin S8x8.rank) ∈ dot_S8x8_S8x256_S8x256_1_0_0_1_n_n.lhsBatch by decide),
    dif_pos (show (0 : Fin S8x8.rank) ∈ dot_S8x8_S8x256_S8x256_1_0_0_1_n_n.lhsNonContracting by decide)]
  rfl

theorem lhs_dot_S8x8_S8x256_S8x256_1_0_0_1_n_n_1 (j : S8x256.Idx) (k : dot_S8x8_S8x256_S8x256_1_0_0_1_n_n.contr.Idx) :
    (dot_S8x8_S8x256_S8x256_1_0_0_1_n_n.lhsIdx j k 1).val = (k ⟨0, by decide⟩).val :=
  DotDims.lhsIdx_val_of_single (d := dot_S8x8_S8x256_S8x256_1_0_0_1_n_n) (cl := 1) rfl j k

theorem rhs_dot_S8x8_S8x256_S8x256_1_0_0_1_n_n_0 (j : S8x256.Idx) (k : dot_S8x8_S8x256_S8x256_1_0_0_1_n_n.contr.Idx) :
    (dot_S8x8_S8x256_S8x256_1_0_0_1_n_n.rhsIdx j k 0).val = (k ⟨0, by decide⟩).val :=
  DotDims.rhsIdx_val_of_single (d := dot_S8x8_S8x256_S8x256_1_0_0_1_n_n) (cr := 0) rfl j k

theorem rhs_dot_S8x8_S8x256_S8x256_1_0_0_1_n_n_1 (j : S8x256.Idx) (k : dot_S8x8_S8x256_S8x256_1_0_0_1_n_n.contr.Idx) :
    (dot_S8x8_S8x256_S8x256_1_0_0_1_n_n.rhsIdx j k 1).val = (j 1).val := by
  unfold DotDims.rhsIdx
  rw [dif_neg (show ¬(1 : Fin S8x256.rank) ∈ dot_S8x8_S8x256_S8x256_1_0_0_1_n_n.rhsBatch by decide),
    dif_pos (show (1 : Fin S8x256.rank) ∈ dot_S8x8_S8x256_S8x256_1_0_0_1_n_n.rhsNonContracting by decide)]
  rfl

theorem headDot_apply (w : Weight) (z : Stack) (o : Fin 8) (q : Fin 256) :
    matmul dot_S8x8_S8x256_S8x256_1_0_0_1_n_n (some .fp32) w z (constant (F := Ideal) S8x256 .f32 0x00000000#32) (ix2 o q)
      = ∑ g : Fin 8, w (ix2 o g) * z (ix2 g q) := by
  refine (Ideal.matmul_constant_zero_apply dot_S8x8_S8x256_S8x256_1_0_0_1_n_n (some .fp32) w z (ix2 o q)).trans ?_
  rw [← Equiv.sum_comp (contrEquiv1 dot_S8x8_S8x256_S8x256_1_0_0_1_n_n 8 rfl rfl).symm]
  refine Finset.sum_congr rfl fun g _ => ?_
  have hk := contrEquiv1_symm_val dot_S8x8_S8x256_S8x256_1_0_0_1_n_n 8 rfl rfl g
  refine congrArg₂ (· * ·) (congrArg w (funext fun a => Fin.ext ?_)) (congrArg z (funext fun a => Fin.ext ?_))
  · match a with
    | ⟨0, _⟩ => exact lhs_dot_S8x8_S8x256_S8x256_1_0_0_1_n_n_0 _ _
    | ⟨1, _⟩ => exact (lhs_dot_S8x8_S8x256_S8x256_1_0_0_1_n_n_1 _ _).trans hk
  · match a with
    | ⟨0, _⟩ => exact (rhs_dot_S8x8_S8x256_S8x256_1_0_0_1_n_n_0 _ _).trans hk
    | ⟨1, _⟩ => exact rhs_dot_S8x8_S8x256_S8x256_1_0_0_1_n_n_1 _ _

theorem biasSpread_apply (b : Bias) (o : Fin 8) (q : Fin 256) :
    broadcastTo S8x256 (shapeCast S8x1 b shapeCasts_S8x1_S8x1) broadcasts_S8x1_S8x256 (ix2 o q) = b (ix2 o (0 : Fin 1)) := by
  rw [shapeCast_self]
  refine broadcastTo_apply b broadcasts_S8x1_S8x256 (ix2 o q) (ix2 o (0 : Fin 1)) fun ax => ?_
  match ax with
  | ⟨0, _⟩ => exact (if_neg (show ¬((8 : ℕ) = 1) by decide)).symm
  | ⟨1, _⟩ => exact (if_pos (show (1 : ℕ) = 1 from rfl)).symm

end Cert.KernelIdeal.RegionValue6

end
-- ==== Proof.Region6C.lean ====
import proofs.«416395_j89292370084186_2_alg».proof.Proof.Gen.KernelIdeal.Frame
import proofs.«416395_j89292370084186_2_alg».proof.Proof.Spec
import proofs.«416395_j89292370084186_2_alg».proof.Proof.Region6A
import proofs.«416395_j89292370084186_2_alg».proof.Proof.Region6B

noncomputable section

namespace Cert.KernelIdeal.RegionValue6

open Cert.KernelIdeal Cert.KernelIdeal.Gen Idealize.ShloMosaic Idealize.ShloMosaic.ValueIdx

abbrev Block : Type := Vec Ideal S8192x256 .f32
abbrev Hidden : Type := S8192x4096.Idx → EReal
abbrev WeightArr : Type := S8x8.Idx → EReal
abbrev BiasArr : Type := S8x1.Idx → EReal
abbrev Result : Type := S8x4096.Idx → EReal

theorem hz : (![0, 0] : Fin 2 → Nat) = fun _ => 0 := funext fun a => match a with | ⟨0, _⟩ => rfl | ⟨1, _⟩ => rfl

theorem ld_group (x0 : Block) (g : Fin 8)
    (inb : ∀ a, (![g.val * 1024, 0] : Fin 2 → Nat) a + S1024x256.size a ≤ S8192x256.size a) (r : Fin 1024) (q : Fin 256) :
    View.ld x0 (Rect.unit (s := S8192x256) ![g.val * 1024, 0] S1024x256.size inb) (ix2 r q) = x0 (ix2 (Cert.Logic.unit g r) q) := by
  refine congrArg x0 (funext fun a => Fin.ext ?_)
  match a with
  | ⟨0, _⟩ => show g.val * 1024 + 1 * r.val = g.val * 1024 + r.val; omega
  | ⟨1, _⟩ => show 0 + 1 * q.val = q.val; omega

def groupTerm (x0 : Block) (g : Fin 8) (q : Fin 256) : EReal := (∑ r : Fin 1024, x0 (ix2 (Cert.Logic.unit g r) q)) * tenth

theorem groupSum_eq (x0 : Block) (g : Fin 8)
    (inb : ∀ a, (![g.val * 1024, 0] : Fin 2 → Nat) a + S1024x256.size a ≤ S8192x256.size a) (q : Fin 256) :
    (∑ r : Fin 1024, View.ld x0 (Rect.unit (s := S8192x256) ![g.val * 1024, 0] S1024x256.size inb) (ix2 r q)) * tenth = groupTerm x0 g q :=
  congrArg (· * tenth) (Finset.sum_congr rfl fun r _ => ld_group x0 g inb r q)

theorem out_apply (x0 : Block) (x1 : Vec Ideal S8x8 .f32) (x2 : Vec Ideal S8x1 .f32) (o : Fin 8) (q : Fin 256) :
    out6_3 (F := Ideal) x0 x1 x2 (ix2 o q) = (∑ g : Fin 8, x1 (ix2 o g) * groupTerm x0 g q) + x2 (ix2 o (0 : Fin 1)) := by
  unfold out6_3
  rw [View.canon_unit_zero hz]
  simp only [View.ld_unit_zero (S := S8x8) hz, View.ld_unit_zero (S := S8x1) hz]
  refine (congrArg₂ (· + ·) (headDot_apply x1 _ o q) (biasSpread_apply x2 o q)).trans ?_
  refine congrArg (· + x2 (ix2 o (0 : Fin 1))) (Finset.sum_congr rfl fun g _ => congrArg (x1 (ix2 o g) * ·) ?_)
  rw [stack_apply]
  match g with
  | ⟨0, _⟩ => exact (pay2_apply _ 0 q).trans (groupSum_eq x0 0 _ q)
  | ⟨1, _⟩ => exact (pay3_apply _ 0 q).trans (groupSum_eq x0 1 _ q)
  | ⟨2, _⟩ => exact (pay4_apply _ 0 q).trans (groupSum_eq x0 2 _ q)
  | ⟨3, _⟩ => exact (pay5_apply _ 0 q).trans (groupSum_eq x0 3 _ q)
  | ⟨4, _⟩ => exact (pay6_apply _ 0 q).trans (groupSum_eq x0 4 _ q)
  | ⟨5, _⟩ => exact (congrArg₂ (· * ·) (pay7_apply _ 0 q) (pay8_apply _)).trans (groupSum_eq x0 5 _ q)
  | ⟨6, _⟩ => exact (pay2_apply _ 0 q).trans (groupSum_eq x0 6 _ q)
  | ⟨7, _⟩ => exact (pay2_apply _ 0 q).trans (groupSum_eq x0 7 _ q)

end Cert.KernelIdeal.RegionValue6

end
-- ==== Proof.Region6D.lean ====
import proofs.«416395_j89292370084186_2_alg».proof.Proof.Region6C

noncomputable section

namespace Cert.KernelIdeal.RegionValue6

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

abbrev hidden (c : Dev nD) : Hidden := V c (Pipeline.arrRef spec6 0)
abbrev weight (c : Dev nD) : WeightArr := V c (Pipeline.arrRef spec6 1)
abbrev bias (c : Dev nD) : BiasArr := V c (Pipeline.arrRef spec6 2)

def headOf (h : Hidden) (w : WeightArr) (b : BiasArr) : Result := fun i =>
  Cert.Logic.headK (fun u : Fin 8192 => h (ix2 u (i 1))) (fun g : Fin 8 => w (ix2 (i 0) g)) (b (ix2 (i 0) (0 : Fin 1)))

theorem idx_facts : ∀ t : Fin cfg6.N, win6_0.index t (0 : Fin 2) = 0 ∧ win6_0.index t (1 : Fin 2) = t.val
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = t.val :=
  (by decide +kernel : ∀ t : Fin grid6.N, _)

theorem N6 : cfg6.N = 16 := rfl

theorem hidden_blk (c : Dev nD) (t : Fin cfg6.N) (u : Fin 8192) (q : Fin 256) (k : Fin 4096) (hk : k.val = t.val * 256 + q.val) :
    (iblk6 (F := Ideal) V c 0 t : S8192x256.Idx → EReal) (ix2 u q) = hidden V c (ix2 u k) := by
  obtain ⟨e0, e1, -⟩ := idx_facts t
  have h : (((cfg6.win 0).blk t).view.emb (ix2 u q) : S8192x4096.Idx) = ix2 u k := by
    funext a; apply Fin.ext
    match a with
    | ⟨0, _⟩ => show win6_0.index t (0 : Fin 2) * 8192 + 1 * u.val = u.val; omega
    | ⟨1, _⟩ => show win6_0.index t (1 : Fin 2) * 256 + 1 * q.val = k.val; omega
  show hidden V c (((cfg6.win 0).blk t).view.emb (ix2 u q)) = _
  rw [h]

theorem weight_blk (c : Dev nD) (t : Fin cfg6.N) (o g : Fin 8) :
    (iblk6 (F := Ideal) V c 1 t : S8x8.Idx → EReal) (ix2 o g) = weight V c (ix2 o g) := by
  obtain ⟨-, -, e2, e3, -⟩ := idx_facts t
  have h : (((cfg6.win 1).blk t).view.emb (ix2 o g) : S8x8.Idx) = ix2 o g := by
    funext a; apply Fin.ext
    match a with
    | ⟨0, _⟩ => show win6_1.index t (0 : Fin 2) * 8 + 1 * o.val = o.val; omega
    | ⟨1, _⟩ => show win6_1.index t (1 : Fin 2) * 8 + 1 * g.val = g.val; omega
  show weight V c (((cfg6.win 1).blk t).view.emb (ix2 o g)) = _
  rw [h]

theorem bias_blk (c : Dev nD) (t : Fin cfg6.N) (o : Fin 8) (z : Fin 1) :
    (iblk6 (F := Ideal) V c 2 t : S8x1.Idx → EReal) (ix2 o z) = bias V c (ix2 o z) := by
  obtain ⟨-, -, -, -, e4, e5, -⟩ := idx_facts t
  have h : (((cfg6.win 2).blk t).view.emb (ix2 o z) : S8x1.Idx) = ix2 o z := by
    funext a; apply Fin.ext
    match a with
    | ⟨0, _⟩ => show win6_2.index t (0 : Fin 2) * 8 + 1 * o.val = o.val; omega
    | ⟨1, _⟩ => show win6_2.index t (1 : Fin 2) * 1 + 1 * z.val = z.val; omega
  show bias V c (((cfg6.win 2).blk t).view.emb (ix2 o z)) = _
  rw [h]

theorem point_eq (c : Dev nD) (t : Fin cfg6.N) (j : S8x256.Idx) :
    out6_3 (F := Ideal) (iblk6 V c 0 t) (iblk6 V c 1 t) (iblk6 V c 2 t) j
      = headOf (hidden V c) (weight V c) (bias V c) (((cfg6.win 3).blk t).view.emb j) := by
  obtain ⟨o, q, rfl⟩ : ∃ (o : Fin 8) (q : Fin 256), j = ix2 o q := ⟨j 0, j 1, eq_ix2 j⟩
  have ht : t.val < 16 := N6 ▸ t.isLt
  obtain ⟨-, -, -, -, -, -, e6, e7⟩ := idx_facts t
  have h : (((cfg6.win 3).blk t).view.emb (ix2 o q) : S8x4096.Idx) = ix2 o ⟨t.val * 256 + q.val, by omega⟩ := by
    funext a; apply Fin.ext
    match a with
    | ⟨0, _⟩ => show win6_3.index t (0 : Fin 2) * 8 + 1 * o.val = o.val; omega
    | ⟨1, _⟩ => show win6_3.index t (1 : Fin 2) * 256 + 1 * q.val = t.val * 256 + q.val; omega
  rw [h, out_apply]
  unfold headOf Cert.Logic.headK groupTerm
  refine congrArg₂ (· + ·) (Finset.sum_congr rfl fun g _ => congrArg₂ (· * ·) (weight_blk V c t o g) ?_) (bias_blk V c t o 0)
  exact congrArg (· * tenth) (Finset.sum_congr rfl fun r _ => hidden_blk V c t _ q _ rfl)

theorem flushed_eq (c : Dev nD) (t : Fin cfg6.N) :
    (dat6 (F := Ideal) V c).flushed 3 t = ((cfg6.win 3).blk t).view.read (Elt Ideal)
      (headOf (hidden V c) (weight V c) (bias V c)) := by
  show (cfg6.win 3).cut (grid6.coords t) ((dat6 V c).after 3 t) = _
  rw [after6_3]
  funext j
  exact point_eq V c t j

theorem mem_blk (t : Fin cfg6.N) (i : S8x4096.Idx) :
    i ∈ ((cfg6.win 3).blk t).view.set ↔ ∀ a : Fin 2, win6_3.index t a * S8x256.size a ≤ (i a).val ∧ (i a).val < win6_3.index t a * S8x256.size a + S8x256.size a := by
  show i ∈ ((View.whole main_v151).slice (win6_3.rect t)).set ↔ _
  rw [View.set_slice_whole, Rect.mem_set_unit]
  exact Iff.rfl

theorem cover (i : S8x4096.Idx) : ∃ t : Fin cfg6.N, (cfg6.win 3).flush t = true ∧ i ∈ ((cfg6.win 3).blk t).view.set := by
  have hi0 : (i 0).val < 8 := (i 0).isLt
  have hi1 : (i 1).val < 4096 := (i 1).isLt
  have hlt : (i 1).val / 256 < cfg6.N := by rw [N6]; omega
  obtain ⟨-, -, -, -, -, -, e6, e7⟩ := idx_facts ⟨(i 1).val / 256, hlt⟩
  refine ⟨⟨(i 1).val / 256, hlt⟩, flush6_3 _, ?_⟩
  rw [mem_blk]
  intro a
  match a with
  | ⟨0, _⟩ =>
    show win6_3.index ⟨(i 1).val / 256, hlt⟩ (0 : Fin 2) * 8 ≤ (i 0).val ∧ (i 0).val < win6_3.index ⟨(i 1).val / 256, hlt⟩ (0 : Fin 2) * 8 + 8
    omega
  | ⟨1, _⟩ =>
    show win6_3.index ⟨(i 1).val / 256, hlt⟩ (1 : Fin 2) * 256 ≤ (i 1).val ∧ (i 1).val < win6_3.index ⟨(i 1).val / 256, hlt⟩ (1 : Fin 2) * 256 + 256
    have e7' : win6_3.index ⟨(i 1).val / 256, hlt⟩ (1 : Fin 2) = (i 1).val / 256 := e7
    omega

theorem final (c : Dev nD) :
    (dat6 (F := Ideal) V c).arrAt 3 cfg6.N
      = headOf (hidden V c) (weight V c) (bias V c) :=
  (dat6 (F := Ideal) V c).arrAt_eq_of_cover 3 _ (fun t _ => flushed_eq V c t) cover

theorem arr6 (c : Dev nD) (o : Fin 8) (t : Fin 4096) :
    ((dat6 (F := Ideal) V c).arrAt 3 cfg6.N : S8x4096.Idx → EReal) (ix2 o t)
      = Cert.Logic.headK (fun u : Fin 8192 => (V c (Pipeline.arrRef spec6 0) : S8192x4096.Idx → EReal) (ix2 u t))
          (fun g : Fin 8 => (V c (Pipeline.arrRef spec6 1) : S8x8.Idx → EReal) (ix2 o g))
          ((V c (Pipeline.arrRef spec6 2) : S8x1.Idx → EReal) (ix2 o 0)) :=
  congrFun (final V c) (ix2 o t)

end Cert.KernelIdeal.RegionValue6

end
-- ==== Proof.Region0.lean ====
import proofs.«416395_j89292370084186_2_alg».proof.Proof.Gen.KernelIdeal.Frame
import proofs.«416395_j89292370084186_2_alg».proof.Proof.Spec
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Cert.Logic Idealize.ShloMosaic Idealize.ShloMosaic.TcCoe Idealize.ShloMosaic.ValueIdx

/-- A column `[a, 1]` broadcast to `[a, b]` reads, at `j`, the column's entry of `j`'s row. -/
theorem columnBroadcast {α : Type} {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (j 0) (0 : Fin 1)) := by
  refine broadcastTo_apply v h j _ fun ax => ?_
  match ax with
  | ⟨0, _⟩ =>
    show (j 0).val = if a = 1 then 0 else (j 0).val
    split
    · have : (j 0).val < a := (j 0).isLt; omega
    · rfl
  | ⟨1, _⟩ => rfl

/-- The body at entry `j` of a block: the shape casts are identities and each column is broadcast along the block's columns. -/
theorem payload (x0 x1 : Vec Ideal S1024x512 .f32) (x2 x3 x4 x5 : Vec Ideal S1024x1 .f32) (j : S1024x512.Idx) :
    k0_pay1 x0 x1 x2 x3 x4 x5 j
      = mix (x2 (ix2 (j 0) 0)) (x3 (ix2 (j 0) 0)) (x4 (ix2 (j 0) 0)) (x5 (ix2 (j 0) 0)) (x0 j) (x1 j) := by
  unfold k0_pay1 mix
  simp only [shapeCast_self, addf_apply, mulf_apply]
  rw [columnBroadcast, columnBroadcast, columnBroadcast, columnBroadcast]

/-- The gate blend of two arrays, each row with its own four coefficients. -/
def gateBlend (c0 c1 c2 c3 : Vec Ideal S8192x1 .f32) (a b : Vec Ideal S8192x4096 .f32) : Vec Ideal S8192x4096 .f32 :=
  fun i => mix (c0 (ix2 (i 0) 0)) (c1 (ix2 (i 0) 0)) (c2 (ix2 (i 0) 0)) (c3 (ix2 (i 0) 0)) (a i) (b i)

theorem zeroOffsets : (![0, 0] : Fin 2 → Nat) = fun _ => 0 := funext fun a => by fin_cases a <;> rfl

/-- The body on blocks read through index maps `e`, `f`, where `f` sends a row to the row `e` sends it to, is the blend's block under `e`. -/
theorem blendBlock (A B : Vec Ideal S8192x4096 .f32) (C0 C1 C2 C3 : Vec Ideal S8192x1 .f32)
    (e : S1024x512.Idx → S8192x4096.Idx) (f : S1024x1.Idx → S8192x1.Idx)
    (h : ∀ j : S1024x512.Idx, f (ix2 (j 0) 0) = ix2 (e j 0) 0) :
    out0_6 (fun j => A (e j)) (fun j => B (e j)) (fun j => C0 (f j)) (fun j => C1 (f j)) (fun j => C2 (f j)) (fun j => C3 (f j))
      = fun j => gateBlend C0 C1 C2 C3 A B (e j) := by
  unfold out0_6
  rw [View.canon_unit_zero zeroOffsets]
  simp only [View.ld_unit_zero (S := S1024x512) zeroOffsets, View.ld_unit_zero (S := S1024x1) zeroOffsets]
  funext j
  rw [payload, h]
  rfl

/-- Row `j 0` of a coefficient column's block is the column's entry at the row of entry `j` of the output's block. -/
theorem sameRow (t : Fin grid0.N) (j : S1024x512.Idx) :
    (win0_2.rect t).emb (ix2 (j 0) (0 : Fin 1)) = ix2 ((win0_6.rect t).emb j 0) (0 : Fin 1) := by
  funext a; apply Fin.ext
  match a with
  | ⟨0, _⟩ => rfl
  | ⟨1, _⟩ => rfl

/-- Every pair of block indices below 8 is some point's. -/
theorem blockOnto : ∀ (q0 q1 : Fin 8), ∃ t : Fin cfg0.N, win0_6.index t = ![q0.val, q1.val] :=
  (by decide +kernel : ∀ (q0 q1 : Fin 8), ∃ t : Fin grid0.N, win0_6.index t = ![q0.val, q1.val])

/-- The blocks tile the output: entry `(r, s)` is an entry of the block with block indices `(r / 1024, s / 512)`. -/
theorem covered (i : S8192x4096.Idx) :
    ∃ (t : Fin grid0.N) (y : S1024x512.Idx), win0_6.flush t = true ∧ (win0_6.rect t).emb y = i := by
  have hi0 : (i 0).val < 8192 := (i 0).isLt
  have hi1 : (i 1).val < 4096 := (i 1).isLt
  obtain ⟨t, ht⟩ := blockOnto ⟨(i 0).val / 1024, by omega⟩ ⟨(i 1).val / 512, by omega⟩
  have q0 : win0_6.index t 0 = (i 0).val / 1024 := congrFun ht 0
  have q1 : win0_6.index t 1 = (i 1).val / 512 := congrFun ht 1
  have hm : i ∈ (win0_6.rect t).set := by
    rw [Rect.mem_set_unit]
    intro a
    match a with
    | ⟨0, _⟩ => show win0_6.index t 0 * 1024 ≤ (i 0).val ∧ (i 0).val < win0_6.index t 0 * 1024 + 1024; omega
    | ⟨1, _⟩ => show win0_6.index t 1 * 512 ≤ (i 1).val ∧ (i 1).val < win0_6.index t 1 * 512 + 512; omega
  rw [← Rect.map_emb_univ] at hm
  obtain ⟨y, -, hy⟩ := Finset.mem_map.mp hm
  exact ⟨t, y, flush0_6 t, hy⟩

/-- An index a view's index map reaches is under the view. -/
theorem mem_set_of_emb {κ : Kind} {sp : Space} {S : Shape} {e : EltTy} (v : View sig κ sp S e) {i : v.ty.Idx} {y : S.Idx}
    (h : v.emb y = i) : i ∈ v.set := h ▸ v.emb_mem_set y

theorem final0 (V : (c : Dev nD) → (b : Ref sig .tc) → Buf (Elt Ideal) ((c : Thread nD τ).loc b)) (c : Dev nD) :
    (dat0 (F := Ideal) V c).arrAt 6 cfg0.N
      = gateBlend (V c (Pipeline.arrRef spec0 2)) (V c (Pipeline.arrRef spec0 3)) (V c (Pipeline.arrRef spec0 4)) (V c (Pipeline.arrRef spec0 5))
          (V c (Pipeline.arrRef spec0 0)) (V c (Pipeline.arrRef spec0 1)) :=
  (dat0 (F := Ideal) V c).arrAt_eq_of_cover 6 _ (fun t _ => (after0_6 V c t).trans (blendBlock _ _ _ _ _ _ _ _ (sameRow t)))
    fun i => let ⟨t, y, hf, hy⟩ := covered i; ⟨t, hf, mem_set_of_emb _ hy⟩

end Cert.KernelIdeal.RegionValue

end
-- ==== Proof.Region5.lean ====
import proofs.«416395_j89292370084186_2_alg».proof.Proof.Region0

namespace Cert.KernelIdeal.RegionValue

open Cert.KernelIdeal Cert.KernelIdeal.Gen Idealize.ShloMosaic Idealize.ShloMosaic.TcCoe Idealize.ShloMosaic.ValueIdx

theorem final5 (V : (c : Dev nD) → (b : Ref sig .tc) → Buf (Elt Ideal) ((c : Thread nD τ).loc b)) (c : Dev nD) :
    (dat5 (F := Ideal) V c).arrAt 6 cfg5.N
      = gateBlend (V c (Pipeline.arrRef spec5 2)) (V c (Pipeline.arrRef spec5 3)) (V c (Pipeline.arrRef spec5 4)) (V c (Pipeline.arrRef spec5 5))
          (V c (Pipeline.arrRef spec5 0)) (V c (Pipeline.arrRef spec5 1)) :=
  (dat5 (F := Ideal) V c).arrAt_eq_of_cover 6 _ (fun t _ => (after5_6 V c t).trans (blendBlock _ _ _ _ _ _ _ _ (sameRow t)))
    fun i => let ⟨t, y, hf, hy⟩ := covered i; ⟨t, hf, mem_set_of_emb _ hy⟩

end Cert.KernelIdeal.RegionValue
-- ==== Proof.Region4.lean ====
import proofs.«416395_j89292370084186_2_alg».proof.Proof.Region0

namespace Cert.KernelIdeal.RegionValue

open Cert.KernelIdeal Cert.KernelIdeal.Gen Idealize.ShloMosaic Idealize.ShloMosaic.TcCoe Idealize.ShloMosaic.ValueIdx

theorem final4 (V : (c : Dev nD) → (b : Ref sig .tc) → Buf (Elt Ideal) ((c : Thread nD τ).loc b)) (c : Dev nD) :
    (dat4 (F := Ideal) V c).arrAt 6 cfg4.N
      = gateBlend (V c (Pipeline.arrRef spec4 2)) (V c (Pipeline.arrRef spec4 3)) (V c (Pipeline.arrRef spec4 4)) (V c (Pipeline.arrRef spec4 5))
          (V c (Pipeline.arrRef spec4 0)) (V c (Pipeline.arrRef spec4 1)) :=
  (dat4 (F := Ideal) V c).arrAt_eq_of_cover 6 _ (fun t _ => (after4_6 V c t).trans (blendBlock _ _ _ _ _ _ _ _ (sameRow t)))
    fun i => let ⟨t, y, hf, hy⟩ := covered i; ⟨t, hf, mem_set_of_emb _ hy⟩

end Cert.KernelIdeal.RegionValue
-- ==== Proof.Region3.lean ====
import proofs.«416395_j89292370084186_2_alg».proof.Proof.Region0

namespace Cert.KernelIdeal.RegionValue

open Cert.KernelIdeal Cert.KernelIdeal.Gen Idealize.ShloMosaic Idealize.ShloMosaic.TcCoe Idealize.ShloMosaic.ValueIdx

theorem final3 (V : (c : Dev nD) → (b : Ref sig .tc) → Buf (Elt Ideal) ((c : Thread nD τ).loc b)) (c : Dev nD) :
    (dat3 (F := Ideal) V c).arrAt 6 cfg3.N
      = gateBlend (V c (Pipeline.arrRef spec3 2)) (V c (Pipeline.arrRef spec3 3)) (V c (Pipeline.arrRef spec3 4)) (V c (Pipeline.arrRef spec3 5))
          (V c (Pipeline.arrRef spec3 0)) (V c (Pipeline.arrRef spec3 1)) :=
  (dat3 (F := Ideal) V c).arrAt_eq_of_cover 6 _ (fun t _ => (after3_6 V c t).trans (blendBlock _ _ _ _ _ _ _ _ (sameRow t)))
    fun i => let ⟨t, y, hf, hy⟩ := covered i; ⟨t, hf, mem_set_of_emb _ hy⟩

end Cert.KernelIdeal.RegionValue
-- ==== Proof.Region2.lean ====
import proofs.«416395_j89292370084186_2_alg».proof.Proof.Region0

namespace Cert.KernelIdeal.RegionValue

open Cert.KernelIdeal Cert.KernelIdeal.Gen Idealize.ShloMosaic Idealize.ShloMosaic.TcCoe Idealize.ShloMosaic.ValueIdx

theorem final2 (V : (c : Dev nD) → (b : Ref sig .tc) → Buf (Elt Ideal) ((c : Thread nD τ).loc b)) (c : Dev nD) :
    (dat2 (F := Ideal) V c).arrAt 6 cfg2.N
      = gateBlend (V c (Pipeline.arrRef spec2 2)) (V c (Pipeline.arrRef spec2 3)) (V c (Pipeline.arrRef spec2 4)) (V c (Pipeline.arrRef spec2 5))
          (V c (Pipeline.arrRef spec2 0)) (V c (Pipeline.arrRef spec2 1)) :=
  (dat2 (F := Ideal) V c).arrAt_eq_of_cover 6 _ (fun t _ => (after2_6 V c t).trans (blendBlock _ _ _ _ _ _ _ _ (sameRow t)))
    fun i => let ⟨t, y, hf, hy⟩ := covered i; ⟨t, hf, mem_set_of_emb _ hy⟩

end Cert.KernelIdeal.RegionValue
-- ==== Proof.Region1.lean ====
import proofs.«416395_j89292370084186_2_alg».proof.Proof.Region0

namespace Cert.KernelIdeal.RegionValue

open Cert.KernelIdeal Cert.KernelIdeal.Gen Idealize.ShloMosaic Idealize.ShloMosaic.TcCoe Idealize.ShloMosaic.ValueIdx

theorem final1 (V : (c : Dev nD) → (b : Ref sig .tc) → Buf (Elt Ideal) ((c : Thread nD τ).loc b)) (c : Dev nD) :
    (dat1 (F := Ideal) V c).arrAt 6 cfg1.N
      = gateBlend (V c (Pipeline.arrRef spec1 2)) (V c (Pipeline.arrRef spec1 3)) (V c (Pipeline.arrRef spec1 4)) (V c (Pipeline.arrRef spec1 5))
          (V c (Pipeline.arrRef spec1 0)) (V c (Pipeline.arrRef spec1 1)) :=
  (dat1 (F := Ideal) V c).arrAt_eq_of_cover 6 _ (fun t _ => (after1_6 V c t).trans (blendBlock _ _ _ _ _ _ _ _ (sameRow t)))
    fun i => let ⟨t, y, hf, hy⟩ := covered i; ⟨t, hf, mem_set_of_emb _ hy⟩

end Cert.KernelIdeal.RegionValue
-- ==== Proof.Bin.lean ====
import Idealize.ShloMosaic.PureOps.Ideal

noncomputable section

namespace Cert.Logic

open Idealize.ShloMosaic

/-- An input read as a bit: 1 where it exceeds one half, 0 elsewhere. -/
def bin (x : EReal) : EReal :=
  FloatOps.uitofp (F := Ideal) .f32
    (FloatOps.cmpf (F := Ideal) (φ := .f32) .ogt x (FloatOps.ofBits (F := Ideal) .f32 0x3F000000#32))

end Cert.Logic

end
-- ==== Proof.Net.lean ====
import proofs.«416395_j89292370084186_2_alg».proof.Proof.Spec
import proofs.«416395_j89292370084186_2_alg».proof.Proof.Bin

noncomputable section

namespace Cert.Logic

open Idealize.ShloMosaic Idealize.ShloMosaic.ValueIdx

/-- The first layer at unit `r`, batch entry `t`: the blend of the two binarised input features the index vectors name for `r`. -/
def layerFirst (x : (⟨2, ![4096, 1024]⟩ : Shape).Idx → EReal) (ia ib : (⟨1, ![8192]⟩ : Shape).Idx → BitVec 32)
    (C : (⟨2, ![8192, 4]⟩ : Shape).Idx → EReal) (r : Fin 8192) (t : Fin 4096) : EReal :=
  mix (C (ix2 r 0)) (C (ix2 r 1)) (C (ix2 r 2)) (C (ix2 r 3))
    (bin (x (ix2 t (pos 1024 (by decide) (ia (ix1 r))))))
    (bin (x (ix2 t (pos 1024 (by decide) (ib (ix1 r))))))

/-- A later layer: the blend of the two units of the previous hidden array that row `k` of the index tables names for `r`. -/
def layerNext (Hp : Fin 8192 → Fin 4096 → EReal) (ia ib : (⟨2, ![5, 8192]⟩ : Shape).Idx → BitVec 32) (k : Fin 5)
    (C : (⟨2, ![8192, 4]⟩ : Shape).Idx → EReal) (r : Fin 8192) (t : Fin 4096) : EReal :=
  mix (C (ix2 r 0)) (C (ix2 r 1)) (C (ix2 r 2)) (C (ix2 r 3))
    (Hp (pos 8192 (by decide) (ia (ix2 k r))) t)
    (Hp (pos 8192 (by decide) (ib (ix2 k r))) t)

end Cert.Logic

end
-- ==== Proof.GatherRead.lean ====
import proofs.«416395_j89292370084186_2_alg».proof.Proof.Spec
import Idealize.ShloMosaic.PureOps.ShapeOps
import Idealize.ShloMosaic.PureOps.Dims
import Idealize.ShloMosaic.Lib.ValueIdx

noncomputable section

namespace Cert.Logic

open Idealize.ShloMosaic Idealize.ShloMosaic.ValueIdx

theorem getElem_of_eq_singleton {β : Type} (l : List β) (b : β) (h : l = [b]) (k : Nat) (hk : k < l.length) :
    l[k]'hk = b := by
  subst h
  have : k = 0 := by simpa using hk
  subst this
  rfl

theorem gather_rows {N R C : Nat} (hN : 0 < N) (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1) (hss : d.sliceSizes = ![1, C])
    {α : Type} (x : (⟨2, ![N, C]⟩ : Shape).Idx → α) (idx : IVec ⟨2, ![R, 1]⟩ 32) (r : Fin R) (t : Fin C) :
    Host.gather d x idx (ix2 r t) = x (ix2 (pos N hN (idx (ix2 r (0 : Fin 1)))) t) := by
  unfold Host.gather
  congr 1
  have hb : ∀ a : Fin 2, a ∉ d.operandBatchingDims := by intro a; rw [hob]; exact List.not_mem_nil
  have hbd : d.batchDims = [0] := by
    show Shape.kept _ d.offsetDims = [0]
    rw [hoff]; rfl
  have hsk : d.sKept = [1] := by
    show Shape.kept _ (d.collapsedSliceDims ++ d.operandBatchingDims) = [1]
    rw [hcoll, hob]; rfl

  have h0 : (d.operandIdx (ix2 r t) idx 0).val = (pos N hN (idx (ix2 r (0 : Fin 1)))).val := by
    have hk : (0 : Fin 2) ∉ d.sKept := by rw [hsk]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    rw [hsl]
    show min (idx _).toInt.toNat (N - 1) = min (idx (ix2 r (0 : Fin 1))).toInt.toNat (N - 1)
    congr 3
    congr 1
    funext b
    apply Fin.ext
    match b with
    | ⟨0, _⟩ =>

      show (d.siIdx (ix2 r t) _ 0).val = r.val
      unfold GatherDims.siIdx
      rw [dif_neg (by rw [hivd]; simp)]
      unfold GatherDims.siCoord
      simp only [Fin.val_cast]
      rw [getElem_of_eq_singleton _ _ hbd]
      rfl
    | ⟨1, _⟩ =>

      show (d.siIdx (ix2 r t) _ 1).val = 0
      unfold GatherDims.siIdx
      rw [dif_pos (by rw [hivd]; rfl)]
      show List.idxOf (0 : Fin 2) d.startIndexMap = 0
      rw [hsim]; simp

  have h1 : (d.operandIdx (ix2 r t) idx 1).val = t.val := by
    have hk : (1 : Fin 2) ∈ d.sKept := by rw [hsk]; simp
    have hm : (1 : Fin 2) ∉ d.startIndexMap := by rw [hsim]; simp
    simp only [GatherDims.operandIdx, GatherDims.batchCoord_eq_zero _ _ _ (hb _),
      Nat.add_zero, GatherDims.start, dif_neg hm, Nat.zero_add, GatherDims.offCoord, dif_pos hk]
    rw [getElem_of_eq_singleton _ _ hoff]
    rfl
  funext a
  apply Fin.ext
  match a with
  | ⟨0, _⟩ => exact h0
  | ⟨1, _⟩ => exact h1

theorem gather_cols {N R C : Nat} (hN : 0 < N) (d : GatherDims ⟨2, ![C, N]⟩ ⟨2, ![R, 1]⟩ ⟨2, ![C, R]⟩)
    (hoff : d.offsetDims = [0]) (hcoll : d.collapsedSliceDims = [1]) (hob : d.operandBatchingDims = [])
    (hsim : d.startIndexMap = [1]) (hivd : d.indexVectorDim = 1) (hss : d.sliceSizes = ![C, 1])
    {α : Type} (x : (⟨2, ![C, N]⟩ : Shape).Idx → α) (idx : IVec ⟨2, ![R, 1]⟩ 32) (t : Fin C) (r : Fin R) :
    Host.gather d x idx (ix2 t r) = x (ix2 t (pos N hN (idx (ix2 r (0 : Fin 1))))) := by
  unfold Host.gather
  congr 1
  have hb : ∀ a : Fin 2, a ∉ d.operandBatchingDims := by intro a; rw [hob]; exact List.not_mem_nil
  have hbd : d.batchDims = [1] := by
    show Shape.kept _ d.offsetDims = [1]
    rw [hoff]; rfl
  have hsk : d.sKept = [0] := by
    show Shape.kept _ (d.collapsedSliceDims ++ d.operandBatchingDims) = [0]
    rw [hcoll, hob]; rfl

  have h0 : (d.operandIdx (ix2 t r) idx 0).val = t.val := by
    have hk : (0 : Fin 2) ∈ d.sKept := by rw [hsk]; simp
    have hm : (0 : Fin 2) ∉ d.startIndexMap := by rw [hsim]; simp
    simp only [GatherDims.operandIdx, GatherDims.batchCoord_eq_zero _ _ _ (hb _),
      Nat.add_zero, GatherDims.start, dif_neg hm, Nat.zero_add, GatherDims.offCoord, dif_pos hk]
    rw [getElem_of_eq_singleton _ _ hoff]
    rfl

  have h1 : (d.operandIdx (ix2 t r) idx 1).val = (pos N hN (idx (ix2 r (0 : Fin 1)))).val := by
    have hk : (1 : Fin 2) ∉ d.sKept := by rw [hsk]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    rw [hsl]
    show min (idx _).toInt.toNat (N - 1) = min (idx (ix2 r (0 : Fin 1))).toInt.toNat (N - 1)
    congr 3
    congr 1
    funext b
    apply Fin.ext
    match b with
    | ⟨0, _⟩ =>

      show (d.siIdx (ix2 t r) _ 0).val = r.val
      unfold GatherDims.siIdx
      rw [dif_neg (by rw [hivd]; simp)]
      unfold GatherDims.siCoord
      simp only [Fin.val_cast]
      rw [getElem_of_eq_singleton _ _ hbd]
      rfl
    | ⟨1, _⟩ =>

      show (d.siIdx (ix2 t r) _ 1).val = 0
      unfold GatherDims.siIdx
      rw [dif_pos (by rw [hivd]; rfl)]
      show List.idxOf (1 : Fin 2) d.startIndexMap = 0
      rw [hsim]; simp
  funext a
  apply Fin.ext
  match a with
  | ⟨0, _⟩ => exact h0
  | ⟨1, _⟩ => exact h1

theorem wrap_nonneg {s : Shape} (idx zero n : IVec s 32) (hz : ∀ i, zero i = 0#32) (h : ∀ i, 0 ≤ (idx i).toInt) :
    select (cmpi .slt idx zero) (addi idx n) idx = idx := by
  funext i
  rw [select_apply]
  have hc : cmpi .slt idx zero i = 0#1 := by
    apply eq_zero_of_ne_one
    show ¬ IntOp.cmpi .slt (idx i) (zero i) = 1#1
    rw [hz i]
    unfold IntOp.cmpi
    have := h i
    simp only [BitVec.slt, BitVec.toInt_zero]
    intro hh
    have h2 : decide ((idx i).toInt < 0) = true := by
      cases hd : decide ((idx i).toInt < 0)
      · rw [hd] at hh; exact absurd hh (by decide)
      · rfl
    have := of_decide_eq_true h2
    omega
  rw [hc, select_zero]

end Cert.Logic

end
-- ==== Proof.KHostRead.lean ====
import proofs.«416395_j89292370084186_2_alg».proof.Proof.Gen.KernelIdeal
import proofs.«416395_j89292370084186_2_alg».proof.Proof.Spec
import proofs.«416395_j89292370084186_2_alg».proof.Proof.GatherRead
import Idealize.ShloMosaic.Lib.ValueIdx
import Idealize.ShloMosaic.Lib.ValueLayout
import Idealize.ShloMosaic.Lib.Pipeline.Value

noncomputable section

namespace Cert.KernelIdeal.HostValue

open Cert.KernelIdeal Cert.KernelIdeal.Gen Idealize.ShloMosaic Idealize.ShloMosaic.ValueIdx

/-- A table's row `k`, laid out as a column, reads the table at `(k, r)`. -/
theorem idx_col_apply {α : Type} (o : Nat) (k : Fin 5) (hko : k.val = o) (w : S5x8192.Idx → α)
    (hs : S5x8192.Slices ![o, 0] S1x8192) (hc : S1x8192.ShapeCasts S8192)
    (hb : S8192.BroadcastsInDim S8192x1 (![0] : Fin 1 → Fin S8192x1.rank)) (r : Fin 8192) :
    broadcastInDim S8192x1 ![0] hb (shapeCast S8192 (extractStridedSlice S1x8192 ![o, 0] w hs) hc) (ix2 r (0 : Fin 1))
      = w (ix2 k r) := by
  refine (broadcastInDim_apply ![0] hb _ (ix2 r (0 : Fin 1)) (ix1 r) (fun a => ?_)).trans ?_
  · match a with
    | ⟨0, _⟩ => rfl
  refine (shapeCast_1a_a_apply _ hc r).trans ?_
  exact slice2_axis0_apply o w hs (0 : Fin 1) r k hko

/-- A table's column `k`, cut out as a column array, reads the table at `(r, k)`. -/
theorem coef_col_apply {α : Type} (o : Nat) (k : Fin 4) (hko : k.val = o) (c : S8192x4.Idx → α)
    (hs : S8192x4.Slices ![0, o] S8192x1) (r : Fin 8192) :
    extractStridedSlice S8192x1 ![0, o] c hs (ix2 r (0 : Fin 1)) = c (ix2 r k) :=
  slice2_axis1_apply o c hs r (0 : Fin 1) k hko

/-- A gather of rows by a table's row `k`: a start index is read signed and clamped into the axis. -/
theorem row_gather_apply {α : Type} (o : Nat) (k : Fin 5) (hko : k.val = o) (x : S8192x4096.Idx → α) (w : S5x8192.Idx → BitVec 32)
    (hs : S5x8192.Slices ![o, 0] S1x8192) (hc : S1x8192.ShapeCasts S8192)
    (hb : S8192.BroadcastsInDim S8192x1 (![0] : Fin 1 → Fin S8192x1.rank)) (r : Fin 8192) (t : Fin 4096) :
    Host.gather gather_S8192x4096_S8192x1_S8192x4096_1_0_n_n_0_1_14096 x
        (broadcastInDim S8192x1 ![0] hb (shapeCast S8192 (extractStridedSlice S1x8192 ![o, 0] w hs) hc)) (ix2 r t)
      = x (ix2 (Cert.Logic.pos 8192 (by decide) (w (ix2 k r))) t) := by
  rw [Cert.Logic.gather_rows (by decide) gather_S8192x4096_S8192x1_S8192x4096_1_0_n_n_0_1_14096 rfl rfl rfl rfl rfl rfl x _ r t,
    idx_col_apply o k hko w hs hc hb r]

/-- A layer's coefficient table: the softmax of slice `L` of the stacked logits along its second axis, times the gate table. -/
def coefK (L : Nat) (h : S6x8192x16.Slices ![L, 0, 0] S1x8192x16) (w : FVec Ideal S6x8192x16 .f32) (gate : FVec Ideal S16x4 .f32) :
    FVec Ideal S8192x4 .f32 :=
  let z : FVec Ideal S8192x16 .f32 :=
    shapeCast S8192x16 (extractStridedSlice S1x8192x16 ![L, 0, 0] w h) shapeCasts_S1x8192x16_S8192x16
  let mx : FVec Ideal S8192 .f32 :=
    maximumf (broadcastInDim S8192 ![] bcast_S_S8192 (constant (F := Ideal) S_ .f32 0xFF800000#32))
      (Host.reduce FloatOps.maximumf z (constant (F := Ideal) S_ .f32 0xFF800000#32) reducesTo_S8192x16_S8192_d1 h_S_)
  let e : FVec Ideal S8192x16 .f32 :=
    Host.exp (subf z (broadcastInDim S8192x16 ![0, 1] bcast_S8192x1_S8192x16_0_1 (broadcastInDim S8192x1 ![0] bcast_S8192_S8192x1_0 mx)))
  let s : FVec Ideal S8192 .f32 :=
    Host.reduceAdd e (constant (F := Ideal) S_ .f32 0x00000000#32) reducesTo_S8192x16_S8192_d1 h_S_
  Host.dotGeneral dot_S8192x16_S16x4_S8192x4_1_0_0_1_n_n (some .fp32)
    (Host.divf e (broadcastInDim S8192x16 ![0, 1] bcast_S8192x1_S8192x16_0_1 (broadcastInDim S8192x1 ![0] bcast_S8192_S8192x1_0 s))) gate

def coefK0 (w : FVec Ideal S6x8192x16 .f32) : FVec Ideal S8192x4 .f32 :=
  coefK 0 slices_S6x8192x16_S1x8192x16_0_0_0 w fun i => FloatOps.ofBits .f32 (lit0 (S16x4.rowMajor i))
def coefK1 (w : FVec Ideal S6x8192x16 .f32) (gate : FVec Ideal S16x4 .f32) : FVec Ideal S8192x4 .f32 :=
  coefK 1 slices_S6x8192x16_S1x8192x16_1_0_0 w gate
def coefK2 (w : FVec Ideal S6x8192x16 .f32) (gate : FVec Ideal S16x4 .f32) : FVec Ideal S8192x4 .f32 :=
  coefK 2 slices_S6x8192x16_S1x8192x16_2_0_0 w gate
def coefK3 (w : FVec Ideal S6x8192x16 .f32) (gate : FVec Ideal S16x4 .f32) : FVec Ideal S8192x4 .f32 :=
  coefK 3 slices_S6x8192x16_S1x8192x16_3_0_0 w gate
def coefK4 (w : FVec Ideal S6x8192x16 .f32) (gate : FVec Ideal S16x4 .f32) : FVec Ideal S8192x4 .f32 :=
  coefK 4 slices_S6x8192x16_S1x8192x16_4_0_0 w gate
def coefK5 (w : FVec Ideal S6x8192x16 .f32) (gate : FVec Ideal S16x4 .f32) : FVec Ideal S8192x4 .f32 :=
  coefK 5 slices_S6x8192x16_S1x8192x16_5_0_0 w gate

end Cert.KernelIdeal.HostValue

end
-- ==== Proof.KHost0.lean ====
import proofs.«416395_j89292370084186_2_alg».proof.Proof.Gen.KernelIdeal
import proofs.«416395_j89292370084186_2_alg».proof.Proof.Spec
import proofs.«416395_j89292370084186_2_alg».proof.Proof.Bin
import proofs.«416395_j89292370084186_2_alg».proof.Proof.GatherRead
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.ValueIdx

/-- The binarised input, feature × batch, with the rows an index vector names. -/
def binRows0 (x : FVec Ideal S4096x1024 .f32) (idx : IVec S8192 32) : FVec Ideal S8192x4096 .f32 :=
  Host.gather gather_S1024x4096_S8192x1_S8192x4096_1_0_n_n_0_1_14096
    (uitofp .f32 (cmpf .ogt (transpose S1024x4096 [1, 0] x transposes_S4096x1024_S1024x4096_1_0)
      (broadcastInDim S1024x4096 ![] bcast_S_S1024x4096 (constant (F := Ideal) S_ .f32 0x3F000000#32))))
    (broadcastInDim S8192x1 ![0] bcast_S8192_S8192x1_0 idx)

theorem col0_apply {α : Type} (v : S8192.Idx → α) (r : Fin 8192) (u : Fin 1) :
    broadcastInDim S8192x1 ![0] bcast_S8192_S8192x1_0 v (ix2 r u) = v (ix1 r) :=
  broadcastInDim_apply _ bcast_S8192_S8192x1_0 v (ix2 r u) (ix1 r) fun a =>
    match a with
    | ⟨0, _⟩ => by
      show r.val = if (8192 : Nat) = 1 then 0 else r.val
      rw [if_neg (by decide)]

/-- A picked row is a column of the input: the gather reads rows of the transpose. -/
theorem binRows0_apply (x : FVec Ideal S4096x1024 .f32) (idx : IVec S8192 32) (r : Fin 8192) (t : Fin 4096) :
    binRows0 x idx (ix2 r t) = Cert.Logic.bin (x (ix2 t (Cert.Logic.pos 1024 (by decide) (idx (ix1 r))))) := by
  unfold binRows0
  rw [Cert.Logic.gather_rows (N := 1024) (R := 8192) (C := 4096) (by decide)
    gather_S1024x4096_S8192x1_S8192x4096_1_0_n_n_0_1_14096 rfl rfl rfl rfl rfl rfl, col0_apply]
  exact congrArg Cert.Logic.bin (transpose_ix2_apply (a := 4096) (b := 1024) x transposes_S4096x1024_S1024x4096_1_0 _ t)

end Cert.KernelIdeal.HostValue

end
-- ==== Proof.KChain0.lean ====
import proofs.«416395_j89292370084186_2_alg».proof.Proof.Gen.KernelIdeal.Frame
import proofs.«416395_j89292370084186_2_alg».proof.Proof.Net
import proofs.«416395_j89292370084186_2_alg».proof.Proof.KHostRead
import proofs.«416395_j89292370084186_2_alg».proof.Proof.KHost0
import proofs.«416395_j89292370084186_2_alg».proof.Proof.Region0
import Idealize.ShloMosaic.Lib.StableHlo.Run

noncomputable section

namespace Cert.KernelIdeal.Chain

open Cert.KernelIdeal Cert.KernelIdeal.Gen Cert.KernelIdeal.HostValue Cert.KernelIdeal.RegionValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ) (ρ : Dev nD → PrngReg)

abbrev gateTable : S16x4.Idx → EReal := fun i => FloatOps.ofBits (F := Ideal) .f32 (lit0 (S16x4.rowMajor i))

/-- The buffers every later layer and the head read again. -/
def keptRefs : List (Ref sig .tc) := [main_arg1, main_arg2, main_arg3, main_arg6, main_arg7, main_cst]

/-- Contents `X` hold those buffers as launched, and the gate table. -/
def Kept (c : Dev nD) (X : Valuation τ sig (Elt Ideal)) : Prop :=
  X (Proc.devRef .tc main_arg1) = m ((c : Thread nD τ).loc main_arg1) ∧ X (Proc.devRef .tc main_arg2) = m ((c : Thread nD τ).loc main_arg2)
  ∧ X (Proc.devRef .tc main_arg3) = m ((c : Thread nD τ).loc main_arg3) ∧ X (Proc.devRef .tc main_arg6) = m ((c : Thread nD τ).loc main_arg6)
  ∧ X (Proc.devRef .tc main_arg7) = m ((c : Thread nD τ).loc main_arg7) ∧ (X (Proc.devRef .tc main_cst) : S16x4.Idx → EReal) = gateTable

variable {m}

/-- A call writes its own arrays `ar` only, and none of them is a kept buffer. -/
theorem Kept.of_ne {c : Dev nD} {X Y : Valuation τ sig (Elt Ideal)} (K : Kept m c X) {n : Nat} {ar : Fin n → Ref sig .tc}
    (h : ∀ b, (∀ w, ar w ≠ b) → Y (Proc.devRef .tc b) = X (Proc.devRef .tc b)) (hd : ∀ b ∈ keptRefs, ∀ w, ar w ≠ b) : Kept m c Y := by
  obtain ⟨e1, e2, e3, e6, e7, ec⟩ := K
  have H := fun b hb => h b (hd b hb)
  exact ⟨(H _ (by decide)).trans e1, (H _ (by decide)).trans e2, (H _ (by decide)).trans e3, (H _ (by decide)).trans e6,
    (H _ (by decide)).trans e7, (H _ (by decide)).trans ec⟩

variable (m)

theorem stretch0 (c : Dev nD) :
    ((W3 (F := Ideal) m ρ c (Proc.devRef .tc main_v18) : S8192x1.Idx → EReal) = extractStridedSlice S8192x1 ![0, 0] (coefK0 (m ((c : Thread nD τ).loc main_arg1))) slices_S8192x4_S8192x1_0_0
    ∧ (W3 (F := Ideal) m ρ c (Proc.devRef .tc main_v19) : S8192x1.Idx → EReal) = extractStridedSlice S8192x1 ![0, 1] (coefK0 (m ((c : Thread nD τ).loc main_arg1))) slices_S8192x4_S8192x1_0_1
    ∧ (W3 (F := Ideal) m ρ c (Proc.devRef .tc main_v20) : S8192x1.Idx → EReal) = extractStridedSlice S8192x1 ![0, 2] (coefK0 (m ((c : Thread nD τ).loc main_arg1))) slices_S8192x4_S8192x1_0_2
    ∧ (W3 (F := Ideal) m ρ c (Proc.devRef .tc main_v21) : S8192x1.Idx → EReal) = extractStridedSlice S8192x1 ![0, 3] (coefK0 (m ((c : Thread nD τ).loc main_arg1))) slices_S8192x4_S8192x1_0_3
    ∧ (W3 (F := Ideal) m ρ c (Proc.devRef .tc main_v22) : S8192x4096.Idx → EReal) = binRows0 (m ((c : Thread nD τ).loc main_arg0)) (m ((c : Thread nD τ).loc main_arg4))
    ∧ (W3 (F := Ideal) m ρ c (Proc.devRef .tc main_v23) : S8192x4096.Idx → EReal) = binRows0 (m ((c : Thread nD τ).loc main_arg0)) (m ((c : Thread nD τ).loc main_arg5)))
    ∧ Kept m c (W3 m ρ c) := by
  dsimp only [Kept, W3, W2, W1, hostOps0, hostOps0_1, hostOps0_2]
  after_results_simp
  refine ⟨⟨rfl, rfl, rfl, rfl, rfl, rfl⟩, ?_, ?_, ?_, ?_, ?_, ?_⟩ <;> trivial

theorem layer0 (c : Dev nD) (r : Fin 8192) (t : Fin 4096) :
    (W4 (F := Ideal) m ρ c (Proc.devRef .tc main_v24) : S8192x4096.Idx → EReal) (ix2 r t)
      = layerFirst (m ((c : Thread nD τ).loc main_arg0)) (m ((c : Thread nD τ).loc main_arg4)) (m ((c : Thread nD τ).loc main_arg5))
          (coefK0 (m ((c : Thread nD τ).loc main_arg1))) r t := by
  obtain ⟨⟨h0, h1, h2, h3, ha, hb⟩, -⟩ := stretch0 m ρ c
  refine (congrFun ((W4_arr (F := Ideal) m ρ c 6).trans (final0 (V3 m ρ) c)) (ix2 r t)).trans ?_
  exact congr (congr (congr (congr (congr (congrArg mix ((congrFun h0 _).trans (coef_col_apply 0 0 rfl _ _ r)))
    ((congrFun h1 _).trans (coef_col_apply 1 1 rfl _ _ r))) ((congrFun h2 _).trans (coef_col_apply 2 2 rfl _ _ r)))
    ((congrFun h3 _).trans (coef_col_apply 3 3 rfl _ _ r))) ((congrFun ha _).trans (binRows0_apply _ _ r t)))
    ((congrFun hb _).trans (binRows0_apply _ _ r t))

theorem exit0 (c : Dev nD) : Kept m c (W4 m ρ c) :=
  (stretch0 m ρ c).2.of_ne (W4_of_ne m ρ c) (by decide)

section
variable {m}

/-- What a later layer's four stretches leave: the table's four columns, two gathers of `Hp` by row `o` of the index tables, the kept buffers. -/
def Stretch (L : Nat) (h6 : S6x8192x16.Slices ![L, 0, 0] S1x8192x16) (o : Nat) (h5 : S5x8192.Slices ![o, 0] S1x8192)
    (W X : Valuation τ sig (Elt Ideal)) (x0 x1 x2 x3 : S8192x1.Idx → EReal) (ya yb Hp : S8192x4096.Idx → EReal) : Prop :=
  x0 = extractStridedSlice S8192x1 ![0, 0] (coefK L h6 (W (Proc.devRef .tc main_arg1)) (W (Proc.devRef .tc main_cst))) slices_S8192x4_S8192x1_0_0
  ∧ x1 = extractStridedSlice S8192x1 ![0, 1] (coefK L h6 (W (Proc.devRef .tc main_arg1)) (W (Proc.devRef .tc main_cst))) slices_S8192x4_S8192x1_0_1
  ∧ x2 = extractStridedSlice S8192x1 ![0, 2] (coefK L h6 (W (Proc.devRef .tc main_arg1)) (W (Proc.devRef .tc main_cst))) slices_S8192x4_S8192x1_0_2
  ∧ x3 = extractStridedSlice S8192x1 ![0, 3] (coefK L h6 (W (Proc.devRef .tc main_arg1)) (W (Proc.devRef .tc main_cst))) slices_S8192x4_S8192x1_0_3
  ∧ ya = Host.gather gather_S8192x4096_S8192x1_S8192x4096_1_0_n_n_0_1_14096 Hp
        (broadcastInDim S8192x1 ![0] bcast_S8192_S8192x1_0 (shapeCast S8192
          (extractStridedSlice S1x8192 ![o, 0] (W (Proc.devRef .tc main_arg6) : S5x8192.Idx → BitVec 32) h5) shapeCasts_S1x8192_S8192))
  ∧ yb = Host.gather gather_S8192x4096_S8192x1_S8192x4096_1_0_n_n_0_1_14096 Hp
        (broadcastInDim S8192x1 ![0] bcast_S8192_S8192x1_0 (shapeCast S8192
          (extractStridedSlice S1x8192 ![o, 0] (W (Proc.devRef .tc main_arg7) : S5x8192.Idx → BitVec 32) h5) shapeCasts_S1x8192_S8192))
  ∧ X (Proc.devRef .tc main_arg1) = W (Proc.devRef .tc main_arg1) ∧ X (Proc.devRef .tc main_arg2) = W (Proc.devRef .tc main_arg2)
  ∧ X (Proc.devRef .tc main_arg3) = W (Proc.devRef .tc main_arg3) ∧ X (Proc.devRef .tc main_arg6) = W (Proc.devRef .tc main_arg6)
  ∧ X (Proc.devRef .tc main_arg7) = W (Proc.devRef .tc main_arg7) ∧ X (Proc.devRef .tc main_cst) = W (Proc.devRef .tc main_cst)

variable {c : Dev nD} {L : Nat} {h6 : S6x8192x16.Slices ![L, 0, 0] S1x8192x16} {o : Nat} {h5 : S5x8192.Slices ![o, 0] S1x8192}
  {W X : Valuation τ sig (Elt Ideal)} {x0 x1 x2 x3 : S8192x1.Idx → EReal} {ya yb Hp : S8192x4096.Idx → EReal}

/-- An array that is the blend of those columns and gathers is the next layer of the network over `Hp`. -/
theorem Stretch.layer (S : Stretch L h6 o h5 W X x0 x1 x2 x3 ya yb Hp) (K : Kept m c W) {k : Fin 5} (hk : k.val = o)
    {out : S8192x4096.Idx → EReal} (ho : out = gateBlend x0 x1 x2 x3 ya yb)
    (r : Fin 8192) (t : Fin 4096) :
    out (ix2 r t) = layerNext (fun r' t' => Hp (ix2 r' t')) (m ((c : Thread nD τ).loc main_arg6)) (m ((c : Thread nD τ).loc main_arg7)) k
      (coefK L h6 (m ((c : Thread nD τ).loc main_arg1)) gateTable) r t := by
  obtain ⟨h0, h1, h2, h3, ha, hb, -⟩ := S
  obtain ⟨e1, -, -, e6, e7, ec⟩ := K
  rw [ho, h0, h1, h2, h3, ha, hb, e1, e6, e7, ec]
  dsimp only [gateBlend]
  rw [coef_col_apply 0 0 rfl, coef_col_apply 1 1 rfl, coef_col_apply 2 2 rfl, coef_col_apply 3 3 rfl, row_gather_apply o k hk,
    row_gather_apply o k hk]
  rfl

theorem Stretch.kept (S : Stretch L h6 o h5 W X x0 x1 x2 x3 ya yb Hp) (K : Kept m c W) {Y : Valuation τ sig (Elt Ideal)} {n : Nat}
    {ar : Fin n → Ref sig .tc} (h : ∀ b, (∀ w, ar w ≠ b) → Y (Proc.devRef .tc b) = X (Proc.devRef .tc b))
    (hd : ∀ b ∈ keptRefs, ∀ w, ar w ≠ b) : Kept m c Y := by
  obtain ⟨-, -, -, -, -, -, s1, s2, s3, s6, s7, sc⟩ := S
  obtain ⟨e1, e2, e3, e6, e7, ec⟩ := K
  exact Kept.of_ne ⟨s1.trans e1, s2.trans e2, s3.trans e3, s6.trans e6, s7.trans e7, sc.trans ec⟩ h hd

end

end Cert.KernelIdeal.Chain

end
-- ==== Proof.KChain1.lean ====
import proofs.«416395_j89292370084186_2_alg».proof.Proof.Region1
import proofs.«416395_j89292370084186_2_alg».proof.Proof.KChain0

noncomputable section

namespace Cert.KernelIdeal.Chain

open Cert.KernelIdeal Cert.KernelIdeal.Gen Cert.KernelIdeal.HostValue Cert.KernelIdeal.RegionValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ) (ρ : Dev nD → PrngReg)

theorem stretch1 (c : Dev nD) : Stretch 1 slices_S6x8192x16_S1x8192x16_1_0_0 0 slices_S5x8192_S1x8192_0_0 (W4 (F := Ideal) m ρ c) (W8 m ρ c)
    (W8 m ρ c (Proc.devRef .tc main_v39)) (W8 m ρ c (Proc.devRef .tc main_v40)) (W8 m ρ c (Proc.devRef .tc main_v41)) (W8 m ρ c (Proc.devRef .tc main_v42))
    (W8 m ρ c (Proc.devRef .tc main_v45)) (W8 m ρ c (Proc.devRef .tc main_v48)) (W4 m ρ c (Proc.devRef .tc main_v24)) := by
  dsimp only [Stretch, W8, W7, W6, W5, hostOps1, hostOps1_1, hostOps1_2, hostOps1_3]
  generalize W4 (F := Ideal) m ρ c = W
  after_results_simp
  refine ⟨rfl, rfl, rfl, rfl, rfl, rfl, ?_, ?_, ?_, ?_, ?_, ?_⟩ <;> trivial

theorem layer1 (c : Dev nD) (r : Fin 8192) (t : Fin 4096) :
    (W9 (F := Ideal) m ρ c (Proc.devRef .tc main_v49) : S8192x4096.Idx → EReal) (ix2 r t)
      = layerNext (fun r' t' => (W4 (F := Ideal) m ρ c (Proc.devRef .tc main_v24) : S8192x4096.Idx → EReal) (ix2 r' t'))
          (m ((c : Thread nD τ).loc main_arg6)) (m ((c : Thread nD τ).loc main_arg7)) (0 : Fin 5)
          (coefK1 (m ((c : Thread nD τ).loc main_arg1)) gateTable) r t :=
  (stretch1 m ρ c).layer (exit0 m ρ c) rfl ((W9_arr m ρ c 6).trans (final1 (V8 m ρ) c)) r t

theorem exit1 (c : Dev nD) : Kept m c (W9 m ρ c) :=
  (stretch1 m ρ c).kept (exit0 m ρ c) (W9_of_ne m ρ c) (by decide)

end Cert.KernelIdeal.Chain

end
-- ==== Proof.KChain2.lean ====
import proofs.«416395_j89292370084186_2_alg».proof.Proof.Region2
import proofs.«416395_j89292370084186_2_alg».proof.Proof.KChain1

noncomputable section

namespace Cert.KernelIdeal.Chain

open Cert.KernelIdeal Cert.KernelIdeal.Gen Cert.KernelIdeal.HostValue Cert.KernelIdeal.RegionValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ) (ρ : Dev nD → PrngReg)

theorem stretch2 (c : Dev nD) : Stretch 2 slices_S6x8192x16_S1x8192x16_2_0_0 1 slices_S5x8192_S1x8192_1_0 (W9 (F := Ideal) m ρ c) (W13 m ρ c)
    (W13 m ρ c (Proc.devRef .tc main_v64)) (W13 m ρ c (Proc.devRef .tc main_v65)) (W13 m ρ c (Proc.devRef .tc main_v66)) (W13 m ρ c (Proc.devRef .tc main_v67))
    (W13 m ρ c (Proc.devRef .tc main_v70)) (W13 m ρ c (Proc.devRef .tc main_v73)) (W9 m ρ c (Proc.devRef .tc main_v49)) := by
  dsimp only [Stretch, W13, W12, W11, W10, hostOps2, hostOps2_1, hostOps2_2, hostOps2_3]
  generalize W9 (F := Ideal) m ρ c = W
  after_results_simp
  refine ⟨rfl, rfl, rfl, rfl, rfl, rfl, ?_, ?_, ?_, ?_, ?_, ?_⟩ <;> trivial

theorem layer2 (c : Dev nD) (r : Fin 8192) (t : Fin 4096) :
    (W14 (F := Ideal) m ρ c (Proc.devRef .tc main_v74) : S8192x4096.Idx → EReal) (ix2 r t)
      = layerNext (fun r' t' => (W9 (F := Ideal) m ρ c (Proc.devRef .tc main_v49) : S8192x4096.Idx → EReal) (ix2 r' t'))
          (m ((c : Thread nD τ).loc main_arg6)) (m ((c : Thread nD τ).loc main_arg7)) (1 : Fin 5)
          (coefK2 (m ((c : Thread nD τ).loc main_arg1)) gateTable) r t :=
  (stretch2 m ρ c).layer (exit1 m ρ c) rfl ((W14_arr m ρ c 6).trans (final2 (V13 m ρ) c)) r t

theorem exit2 (c : Dev nD) : Kept m c (W14 m ρ c) :=
  (stretch2 m ρ c).kept (exit1 m ρ c) (W14_of_ne m ρ c) (by decide)

end Cert.KernelIdeal.Chain

end
-- ==== Proof.KChain3.lean ====
import proofs.«416395_j89292370084186_2_alg».proof.Proof.Region3
import proofs.«416395_j89292370084186_2_alg».proof.Proof.KChain2

noncomputable section

namespace Cert.KernelIdeal.Chain

open Cert.KernelIdeal Cert.KernelIdeal.Gen Cert.KernelIdeal.HostValue Cert.KernelIdeal.RegionValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ) (ρ : Dev nD → PrngReg)

theorem stretch3 (c : Dev nD) : Stretch 3 slices_S6x8192x16_S1x8192x16_3_0_0 2 slices_S5x8192_S1x8192_2_0 (W14 (F := Ideal) m ρ c) (W18 m ρ c)
    (W18 m ρ c (Proc.devRef .tc main_v89)) (W18 m ρ c (Proc.devRef .tc main_v90)) (W18 m ρ c (Proc.devRef .tc main_v91)) (W18 m ρ c (Proc.devRef .tc main_v92))
    (W18 m ρ c (Proc.devRef .tc main_v95)) (W18 m ρ c (Proc.devRef .tc main_v98)) (W14 m ρ c (Proc.devRef .tc main_v74)) := by
  dsimp only [Stretch, W18, W17, W16, W15, hostOps3, hostOps3_1, hostOps3_2, hostOps3_3]
  generalize W14 (F := Ideal) m ρ c = W
  after_results_simp
  refine ⟨rfl, rfl, rfl, rfl, rfl, rfl, ?_, ?_, ?_, ?_, ?_, ?_⟩ <;> trivial

theorem layer3 (c : Dev nD) (r : Fin 8192) (t : Fin 4096) :
    (W19 (F := Ideal) m ρ c (Proc.devRef .tc main_v99) : S8192x4096.Idx → EReal) (ix2 r t)
      = layerNext (fun r' t' => (W14 (F := Ideal) m ρ c (Proc.devRef .tc main_v74) : S8192x4096.Idx → EReal) (ix2 r' t'))
          (m ((c : Thread nD τ).loc main_arg6)) (m ((c : Thread nD τ).loc main_arg7)) (2 : Fin 5)
          (coefK3 (m ((c : Thread nD τ).loc main_arg1)) gateTable) r t :=
  (stretch3 m ρ c).layer (exit2 m ρ c) rfl ((W19_arr m ρ c 6).trans (final3 (V18 m ρ) c)) r t

theorem exit3 (c : Dev nD) : Kept m c (W19 m ρ c) :=
  (stretch3 m ρ c).kept (exit2 m ρ c) (W19_of_ne m ρ c) (by decide)

end Cert.KernelIdeal.Chain

end
-- ==== Proof.KChain4.lean ====
import proofs.«416395_j89292370084186_2_alg».proof.Proof.Region4
import proofs.«416395_j89292370084186_2_alg».proof.Proof.KChain3

noncomputable section

namespace Cert.KernelIdeal.Chain

open Cert.KernelIdeal Cert.KernelIdeal.Gen Cert.KernelIdeal.HostValue Cert.KernelIdeal.RegionValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ) (ρ : Dev nD → PrngReg)

theorem stretch4 (c : Dev nD) : Stretch 4 slices_S6x8192x16_S1x8192x16_4_0_0 3 slices_S5x8192_S1x8192_3_0 (W19 (F := Ideal) m ρ c) (W23 m ρ c)
    (W23 m ρ c (Proc.devRef .tc main_v114)) (W23 m ρ c (Proc.devRef .tc main_v115)) (W23 m ρ c (Proc.devRef .tc main_v116)) (W23 m ρ c (Proc.devRef .tc main_v117))
    (W23 m ρ c (Proc.devRef .tc main_v120)) (W23 m ρ c (Proc.devRef .tc main_v123)) (W19 m ρ c (Proc.devRef .tc main_v99)) := by
  dsimp only [Stretch, W23, W22, W21, W20, hostOps4, hostOps4_1, hostOps4_2, hostOps4_3]
  generalize W19 (F := Ideal) m ρ c = W
  after_results_simp
  refine ⟨rfl, rfl, rfl, rfl, rfl, rfl, ?_, ?_, ?_, ?_, ?_, ?_⟩ <;> trivial

theorem layer4 (c : Dev nD) (r : Fin 8192) (t : Fin 4096) :
    (W24 (F := Ideal) m ρ c (Proc.devRef .tc main_v124) : S8192x4096.Idx → EReal) (ix2 r t)
      = layerNext (fun r' t' => (W19 (F := Ideal) m ρ c (Proc.devRef .tc main_v99) : S8192x4096.Idx → EReal) (ix2 r' t'))
          (m ((c : Thread nD τ).loc main_arg6)) (m ((c : Thread nD τ).loc main_arg7)) (3 : Fin 5)
          (coefK4 (m ((c : Thread nD τ).loc main_arg1)) gateTable) r t :=
  (stretch4 m ρ c).layer (exit3 m ρ c) rfl ((W24_arr m ρ c 6).trans (final4 (V23 m ρ) c)) r t

theorem exit4 (c : Dev nD) : Kept m c (W24 m ρ c) :=
  (stretch4 m ρ c).kept (exit3 m ρ c) (W24_of_ne m ρ c) (by decide)

end Cert.KernelIdeal.Chain

end
-- ==== Proof.KChain5.lean ====
import proofs.«416395_j89292370084186_2_alg».proof.Proof.Region5
import proofs.«416395_j89292370084186_2_alg».proof.Proof.KChain4

noncomputable section

namespace Cert.KernelIdeal.Chain

open Cert.KernelIdeal Cert.KernelIdeal.Gen Cert.KernelIdeal.HostValue Cert.KernelIdeal.RegionValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ) (ρ : Dev nD → PrngReg)

theorem stretch5 (c : Dev nD) : Stretch 5 slices_S6x8192x16_S1x8192x16_5_0_0 4 slices_S5x8192_S1x8192_4_0 (W24 (F := Ideal) m ρ c) (W28 m ρ c)
    (W28 m ρ c (Proc.devRef .tc main_v139)) (W28 m ρ c (Proc.devRef .tc main_v140)) (W28 m ρ c (Proc.devRef .tc main_v141)) (W28 m ρ c (Proc.devRef .tc main_v142))
    (W28 m ρ c (Proc.devRef .tc main_v145)) (W28 m ρ c (Proc.devRef .tc main_v148)) (W24 m ρ c (Proc.devRef .tc main_v124)) := by
  dsimp only [Stretch, W28, W27, W26, W25, hostOps5, hostOps5_1, hostOps5_2, hostOps5_3]
  generalize W24 (F := Ideal) m ρ c = W
  after_results_simp
  refine ⟨rfl, rfl, rfl, rfl, rfl, rfl, ?_, ?_, ?_, ?_, ?_, ?_⟩ <;> trivial

theorem layer5 (c : Dev nD) (r : Fin 8192) (t : Fin 4096) :
    (W29 (F := Ideal) m ρ c (Proc.devRef .tc main_v149) : S8192x4096.Idx → EReal) (ix2 r t)
      = layerNext (fun r' t' => (W24 (F := Ideal) m ρ c (Proc.devRef .tc main_v124) : S8192x4096.Idx → EReal) (ix2 r' t'))
          (m ((c : Thread nD τ).loc main_arg6)) (m ((c : Thread nD τ).loc main_arg7)) (4 : Fin 5)
          (coefK5 (m ((c : Thread nD τ).loc main_arg1)) gateTable) r t :=
  (stretch5 m ρ c).layer (exit4 m ρ c) rfl ((W29_arr m ρ c 6).trans (final5 (V28 m ρ) c)) r t

theorem exit5 (c : Dev nD) : Kept m c (W29 m ρ c) :=
  (stretch5 m ρ c).kept (exit4 m ρ c) (W29_of_ne m ρ c) (by decide)

theorem exit5_arg2 (c : Dev nD) : W29 (F := Ideal) m ρ c (Proc.devRef .tc main_arg2) = m ((c : Thread nD τ).loc main_arg2) := (exit5 m ρ c).2.1
theorem exit5_arg3 (c : Dev nD) : W29 (F := Ideal) m ρ c (Proc.devRef .tc main_arg3) = m ((c : Thread nD τ).loc main_arg3) := (exit5 m ρ c).2.2.1

end Cert.KernelIdeal.Chain

end
-- ==== Proof.KChainHead.lean ====
import proofs.«416395_j89292370084186_2_alg».proof.Proof.Gen.KernelIdeal.Frame
import proofs.«416395_j89292370084186_2_alg».proof.Proof.Spec
import proofs.«416395_j89292370084186_2_alg».proof.Proof.Bridge
import proofs.«416395_j89292370084186_2_alg».proof.Proof.KHostTail
import proofs.«416395_j89292370084186_2_alg».proof.Proof.Region6D
import proofs.«416395_j89292370084186_2_alg».proof.Proof.KChain5

set_option maxRecDepth 16384

noncomputable section

namespace Cert.KernelIdeal.Chain

open Cert.KernelIdeal Cert.KernelIdeal.Gen Cert.KernelIdeal.HostValue Cert.KernelIdeal.RegionValue6
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ) (ρ : Dev nD → PrngReg)

theorem head (c : Dev nD) (t : Fin 4096) (o : Fin 8) :
    (W32 (F := Ideal) m ρ c (Proc.devRef .tc main_v152) : S4096x8.Idx → EReal) (ix2 t o)
      = headK (fun u : Fin 8192 => (W29 (F := Ideal) m ρ c (Proc.devRef .tc main_v149) : S8192x4096.Idx → EReal) (ix2 u t))
          (fun g : Fin 8 => (m ((c : Thread nD τ).loc main_arg2) : S8x8.Idx → EReal) (ix2 o g))
          ((m ((c : Thread nD τ).loc main_arg3) : S8.Idx → EReal) (ix1 o)) := by
  refine (tail_out (W31 m ρ c) t o).trans ?_
  have h2 : (W31 (F := Ideal) m ρ c (Proc.devRef .tc main_v151) : S8x4096.Idx → EReal) (ix2 o t)
      = ((dat6 (F := Ideal) (V30 m ρ) c).arrAt 3 cfg6.N : S8x4096.Idx → EReal) (ix2 o t) :=
    congrFun (W31_arr (F := Ideal) m ρ c 3) (ix2 o t)
  rw [h2, arr6 (V30 m ρ) c o t]
  refine headK_congr (fun u => ?_) (fun g => ?_) ?_
  · exact congrFun (tail_keep6_v149 (W29 m ρ c)) (ix2 u t)
  · exact congrFun ((tail_keep6_arg2 (W29 m ρ c)).trans (exit5_arg2 m ρ c)) (ix2 o g)
  · exact (tail_bias (W29 m ρ c) o).trans (congrFun (exit5_arg3 m ρ c) (ix1 o))

end Cert.KernelIdeal.Chain

end
-- ==== Proof.RHeadA.lean ====
import proofs.«416395_j89292370084186_2_alg».proof.ReferenceIdeal
import proofs.«416395_j89292370084186_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.HeadValue

open Cert.ReferenceIdeal Idealize.ShloMosaic Idealize.ShloMosaic.ValueIdx

theorem ofBits_ten : Ideal.ofBits .f32 0x41200000#32 = ((10 : ℝ) : EReal) := by
  simp [Ideal.ofBits, Ideal.ieee, -EReal.coe_mul]; norm_num

/-- Row-major, hidden unit `g·1024 + r` of batch entry `t` is entry `(t, g, r)` of the [4096, 8, 1024] view. -/
theorem groupSum_apply (x : S4096x8192.Idx → EReal) (hc : S4096x8192.ShapeCasts S4096x8x1024)
    (hr : S4096x8x1024.ReducesTo [2] S4096x8) (init : S_.Idx → EReal) (hu : 0 < S_.numel) (t : Fin 4096) (g : Fin 8) :
    Host.reduceAdd (F := Ideal) (φ := .f32) (shapeCast S4096x8x1024 x hc) init hr hu (ix2 t g)
      = init (Shape.Idx.first hu) + ∑ r : Fin 1024, x (ix2 t (Cert.Logic.unit g r)) := by
  have hR : S4096x8x1024.Reduces [2] S4096x8 := by decide
  rw [hostReduceAdd_apply, Ideal.hostReduceAdd_single hr hR]
  refine congrArg (fun z => init (Shape.Idx.first hu) + z) ?_
  refine Finset.sum_congr rfl fun r _ => ?_
  refine shapeCast_apply x hc _ _ ?_
  rw [Shape.rowMajor_val_two, Shape.rowMajor_val_three]
  show t.val * 8192 + (g.val * 1024 + r.val) = (t.val * 8 + g.val) * 1024 + r.val
  omega

theorem divTen_apply (a : S4096x8.Idx → EReal) (hb : S_.BroadcastsInDim S4096x8 (![] : Fin 0 → Fin S4096x8.rank))
    (j : S4096x8.Idx) :
    Host.divf (F := Ideal) (φ := .f32) a (broadcastInDim S4096x8 ![] hb (constant (F := Ideal) S_ .f32 0x41200000#32)) j
      = a j * ((1 / 10 : ℝ) : EReal) := by
  rw [hostDivf_apply, broadcastInDim_scalar_apply, constant_apply, ofBits_ten,
    Ideal.div_coe (by norm_num : (10 : ℝ) ≠ 0)]

theorem bias_apply (b : S8.Idx → EReal) (h1 : S8.BroadcastsInDim S1x8 (![1] : Fin 1 → Fin S1x8.rank))
    (h2 : S1x8.BroadcastsInDim S4096x8 (![0, 1] : Fin 2 → Fin S4096x8.rank)) (t : Fin 4096) (o : Fin 8) :
    broadcastInDim S4096x8 ![0, 1] h2 (broadcastInDim S1x8 ![1] h1 b) (ix2 t o) = b (ix1 o) := by
  refine (broadcastInDim_apply _ h2 _ _ (ix2 (0 : Fin 1) o) (fun a => match a with
    | ⟨0, _⟩ => rfl
    | ⟨1, _⟩ => rfl)).trans ?_
  exact broadcastInDim_apply _ h1 _ _ (ix1 o) (fun a => match a with
    | ⟨0, _⟩ => rfl)

/-- The contraction at `(t, o)` is the sum over the eight groups of the products. -/
theorem dot_apply [Facts₀] (l : S4096x8.Idx → EReal) (r : S8x8.Idx → EReal) (t : Fin 4096) (o : Fin 8) :
    Host.dotGeneral (F := Ideal) (φ₁ := .f32) (φ₂ := .f32) dot_S4096x8_S8x8_S4096x8_1_0_0_1_n_n none l r (ix2 t o)
      = ∑ g : Fin 8, l (ix2 t g) * r (ix2 g o) := by
  simp only [Host.dotGeneral]
  rw [Ideal.dotGeneral_apply, ← Equiv.sum_comp (contrEquiv1 dot_S4096x8_S8x8_S4096x8_1_0_0_1_n_n 8 rfl rfl).symm]
  refine Finset.sum_congr rfl fun g _ => ?_
  have hl : dot_S4096x8_S8x8_S4096x8_1_0_0_1_n_n.lhsIdx (ix2 t o) ((contrEquiv1 dot_S4096x8_S8x8_S4096x8_1_0_0_1_n_n 8 rfl rfl).symm g) = ix2 t g := by
    funext a
    match a with
    | ⟨0, _⟩ => rfl
    | ⟨1, _⟩ => exact Fin.ext ((dot_S4096x8_S8x8_S4096x8_1_0_0_1_n_n.lhsIdx_val_of_single (cl := 1) rfl _ _).trans (contrEquiv1_symm_val _ 8 rfl rfl g))
  have hr : dot_S4096x8_S8x8_S4096x8_1_0_0_1_n_n.rhsIdx (ix2 t o) ((contrEquiv1 dot_S4096x8_S8x8_S4096x8_1_0_0_1_n_n 8 rfl rfl).symm g) = ix2 g o := by
    funext a
    match a with
    | ⟨0, _⟩ => exact Fin.ext ((dot_S4096x8_S8x8_S4096x8_1_0_0_1_n_n.rhsIdx_val_of_single (cr := 0) rfl _ _).trans (contrEquiv1_symm_val _ 8 rfl rfl g))
    | ⟨1, _⟩ => rfl
  rw [hl, hr]

theorem weightT_apply (w : S8x8.Idx → EReal) (h : S8x8.Transposes [1, 0] S8x8) (g o : Fin 8) :
    transpose S8x8 [1, 0] w h (ix2 g o) = w (ix2 o g) :=
  transpose_ix2_apply w h g o

end Cert.ReferenceIdeal.HeadValue

end
-- ==== Proof.RHead.lean ====
import proofs.«416395_j89292370084186_2_alg».proof.Proof.RefOps
import proofs.«416395_j89292370084186_2_alg».proof.Proof.RHeadA
import Idealize.ShloMosaic.Lib.StableHlo.Run

noncomputable section

namespace Cert.ReferenceIdeal.HeadValue

open Cert.ReferenceIdeal Cert.ReferenceIdeal.Ops Cert.ReferenceIdeal.Gen Idealize.ShloMosaic Idealize.ShloMosaic.ValueIdx
  Idealize.ShloMosaic.StableHlo

theorem head_out (V : Valuation τ sig (Elt Ideal)) (t : Fin 4096) (o : Fin 8) :
    (StableHlo.after (Lfin (F := Ideal)) V (Proc.devRef .tc main_v337) : S4096x8.Idx → EReal) (ix2 t o)
      = (∑ g : Fin 8, ((∑ r : Fin 1024, (V (Proc.devRef .tc main_v328) : S4096x8192.Idx → EReal) (ix2 t (Cert.Logic.unit g r)) : EReal)
            * ((1 / 10 : ℝ) : EReal)) * (V (Proc.devRef .tc main_arg2) : S8x8.Idx → EReal) (ix2 o g))
        + (V (Proc.devRef .tc main_arg3) : S8.Idx → EReal) (ix1 o) := by
  have e : (StableHlo.after (Lfin (F := Ideal)) V (Proc.devRef .tc main_v337) : S4096x8.Idx → EReal)
      = addf (Host.dotGeneral (F := Ideal) (φ₁ := .f32) (φ₂ := .f32) dot_S4096x8_S8x8_S4096x8_1_0_0_1_n_n none
            (Host.divf
              (Host.reduceAdd (shapeCast S4096x8x1024 (V (Proc.devRef .tc main_v328) : S4096x8192.Idx → EReal)
                  shapeCasts_S4096x8192_S4096x8x1024)
                (constant (F := Ideal) S_ .f32 0x00000000#32) reducesTo_S4096x8x1024_S4096x8_d2 h_S_)
              (broadcastInDim S4096x8 ![] bcast_S_S4096x8 (constant (F := Ideal) S_ .f32 0x41200000#32)))
            (transpose S8x8 [1, 0] (V (Proc.devRef .tc main_arg2) : S8x8.Idx → EReal) transposes_S8x8_S8x8_1_0))
          (broadcastInDim S4096x8 ![0, 1] bcast_S1x8_S4096x8_0_1
            (broadcastInDim S1x8 ![1] bcast_S8_S1x8_1 (V (Proc.devRef .tc main_arg3) : S8.Idx → EReal))) := by
    after_results
    rfl
  rw [e, addf_apply, dot_apply, bias_apply]
  refine congrArg (fun z => z + (V (Proc.devRef .tc main_arg3) : S8.Idx → EReal) (ix1 o)) ?_
  refine Finset.sum_congr rfl fun g _ => ?_
  rw [divTen_apply, groupSum_apply, weightT_apply, constant_apply, Ideal.ofBits_zero_f32, zero_add]

end Cert.ReferenceIdeal.HeadValue

end
-- ==== Proof.RLayerRead.lean ====
import proofs.«416395_j89292370084186_2_alg».proof.Proof.Gen.ReferenceIdeal
import Idealize.ShloMosaic.Lib.ValueIdx
import Idealize.ShloMosaic.Lib.ValueLayout
import Idealize.ShloMosaic.Lib.Pipeline.Value

noncomputable section

namespace Cert.ReferenceIdeal.LayerValue

open Cert.ReferenceIdeal Cert.ReferenceIdeal.Gen Idealize.ShloMosaic Idealize.ShloMosaic.ValueIdx

variable {α : Type}

theorem rowFlat_apply (o : Nat) (w : S5x8192.Idx → α) (h : S5x8192.Slices ![o, 0] S1x8192)
    (k : Fin 5) (hk : k.val = o) (r : Fin 8192) :
    shapeCast S8192 (extractStridedSlice S1x8192 ![o, 0] w h) shapeCasts_S1x8192_S8192 (ix1 r) = w (ix2 k r) := by
  rw [shapeCast_1a_a_apply]
  exact slice2_axis0_apply o w h (0 : Fin 1) r k (by rw [hk]; rfl)

theorem colOf_apply (v : S8192.Idx → α) (r : Fin 8192) :
    broadcastInDim S8192x1 ![0] bcast_S8192_S8192x1_0 v (ix2 r (0 : Fin 1)) = v (ix1 r) :=
  broadcastInDim_apply _ _ _ _ (ix1 r) (fun a => by
    match a with
    | ⟨0, _⟩ => rfl)

theorem rowsOf_apply (v : S8192.Idx → α) (t : Fin 4096) (r : Fin 8192) :
    broadcastInDim S4096x8192 ![0, 1] bcast_S1x8192_S4096x8192_0_1
      (broadcastInDim S1x8192 ![1] bcast_S8192_S1x8192_1 v) (ix2 t r) = v (ix1 r) := by
  rw [broadcastInDim_apply _ _ _ (ix2 t r) (ix2 (0 : Fin 1) r) (fun a => by
    match a with
    | ⟨0, _⟩ => rfl
    | ⟨1, _⟩ => rfl)]
  exact broadcastInDim_apply _ _ _ _ (ix1 r) (fun a => by
    match a with
    | ⟨0, _⟩ => rfl)

theorem colFlat_apply (o : Nat) (C : S8192x4.Idx → α) (h : S8192x4.Slices ![0, o] S8192x1)
    (k : Fin 4) (hk : k.val = o) (r : Fin 8192) :
    shapeCast S8192 (extractStridedSlice S8192x1 ![0, o] C h) shapeCasts_S8192x1_S8192 (ix1 r) = C (ix2 r k) := by
  rw [shapeCast_apply _ _ (ix1 r) (ix2 r (0 : Fin 1)) (by
    rw [Shape.rowMajor_val_two, Shape.rowMajor_val_one]
    show r.val * 1 + 0 = r.val
    omega)]
  exact slice2_axis1_apply o C h r (0 : Fin 1) k (by rw [hk]; rfl)

end Cert.ReferenceIdeal.LayerValue

end
-- ==== Proof.RLayerGate.lean ====
import proofs.«416395_j89292370084186_2_alg».proof.Proof.RLayerRead
import proofs.«416395_j89292370084186_2_alg».proof.Proof.Net
import proofs.«416395_j89292370084186_2_alg».proof.Proof.GatherRead
import Idealize.ShloMosaic.Lib.ValueIdx

noncomputable section

namespace Cert.ReferenceIdeal.LayerValue

open Cert.ReferenceIdeal Cert.ReferenceIdeal.Gen Idealize.ShloMosaic Idealize.ShloMosaic.ValueIdx

/-- A layer's coefficient table: slice `o` of the weights, softmax along the sixteen gate kinds, times the gate table. -/
def coefOf (o : Nat) (h : S6x8192x16.Slices ![o, 0, 0] S1x8192x16) (w : FVec Ideal S6x8192x16 .f32)
    (gate : FVec Ideal S16x4 .f32) : FVec Ideal S8192x4 .f32 :=
  let x : FVec Ideal S8192x16 .f32 :=
    shapeCast S8192x16 (extractStridedSlice S1x8192x16 ![o, 0, 0] w h) shapeCasts_S1x8192x16_S8192x16
  let ninf : FVec Ideal S_ .f32 := constant (F := Ideal) S_ .f32 0xFF800000#32
  let rows : FVec Ideal S8192 .f32 → FVec Ideal S8192x16 .f32 := fun v =>
    broadcastInDim S8192x16 ![0, 1] bcast_S8192x1_S8192x16_0_1 (broadcastInDim S8192x1 ![0] bcast_S8192_S8192x1_0 v)
  let e : FVec Ideal S8192x16 .f32 :=
    Host.exp (subf x (rows (maximumf (broadcastInDim S8192 ![] bcast_S_S8192 ninf)
      (Host.reduce FloatOps.maximumf x ninf reducesTo_S8192x16_S8192_d1 h_S_))))
  Host.dotGeneral dot_S8192x16_S16x4_S8192x4_1_0_0_1_n_n none
    (Host.divf e (rows (Host.reduceAdd e (constant (F := Ideal) S_ .f32 0x00000000#32) reducesTo_S8192x16_S8192_d1 h_S_)))
    gate

/-- The start indices a gather takes: the words `v`, the negative ones moved up by `n`, stood up as a column. -/
def startOf (n : BitVec 32) (v : IVec S8192 32) : IVec S8192x1 32 :=
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 n))) v)

def rowR (o : Nat) (h : S5x8192.Slices ![o, 0] S1x8192) (w : IVec S5x8192 32) : IVec S8192 32 :=
  shapeCast S8192 (extractStridedSlice S1x8192 ![o, 0] w h) shapeCasts_S1x8192_S8192

def gat0 (x : FVec Ideal S4096x1024 .f32) (ia : IVec S8192 32) : FVec Ideal S4096x8192 .f32 :=
  Host.gather gather_S4096x1024_S8192x1_S4096x8192_0_1_n_n_1_1_40961 x (startOf 1024#32 ia)

def gateIn (o : Nat) (h : S5x8192.Slices ![o, 0] S1x8192) (x : FVec Ideal S4096x8192 .f32) (w : IVec S5x8192 32) :
    FVec Ideal S4096x8192 .f32 :=
  Host.gather gather_S4096x8192_S8192x1_S4096x8192_0_1_n_n_1_1_40961 x (startOf 8192#32 (rowR o h w))

def coefCol (o : Nat) (h : S8192x4.Slices ![0, o] S8192x1) (C : FVec Ideal S8192x4 .f32) : FVec Ideal S4096x8192 .f32 :=
  broadcastInDim S4096x8192 ![0, 1] bcast_S1x8192_S4096x8192_0_1
    (broadcastInDim S1x8192 ![1] bcast_S8192_S1x8192_1
      (shapeCast S8192 (extractStridedSlice S8192x1 ![0, o] C h) shapeCasts_S8192x1_S8192))

/-- The blend of two gathered arrays with the four coefficient columns, in the order the reference adds and multiplies. -/
def blend (C : FVec Ideal S8192x4 .f32) (a b : FVec Ideal S4096x8192 .f32) : FVec Ideal S4096x8192 .f32 :=
  addf
    (addf (addf (coefCol 0 slices_S8192x4_S8192x1_0_0 C) (mulf (coefCol 1 slices_S8192x4_S8192x1_0_1 C) a))
      (mulf (coefCol 2 slices_S8192x4_S8192x1_0_2 C) b))
    (mulf (coefCol 3 slices_S8192x4_S8192x1_0_3 C) (mulf a b))

def layer0 (C : FVec Ideal S8192x4 .f32) (x : FVec Ideal S4096x1024 .f32) (ia ib : IVec S8192 32) :
    FVec Ideal S4096x8192 .f32 :=
  blend C (gat0 x ia) (gat0 x ib)

def layerOut (o : Nat) (h : S5x8192.Slices ![o, 0] S1x8192) (x : FVec Ideal S4096x8192 .f32) (wA wB : IVec S5x8192 32)
    (C : FVec Ideal S8192x4 .f32) : FVec Ideal S4096x8192 .f32 :=
  blend C (gateIn o h x wA) (gateIn o h x wB)

/-- Wrapping changes no word that is not negative. -/
theorem startOf_apply (n : BitVec 32) (v : IVec S8192 32) (hv : ∀ j : Fin 8192, 0 ≤ (v (ix1 j)).toInt) (r : Fin 8192) :
    startOf n v (ix2 r (0 : Fin 1)) = v (ix1 r) := by
  unfold startOf
  rw [colOf_apply, Cert.Logic.wrap_nonneg v (broadcastInDim S8192 ![] bcast_S_S8192 (constantI S_ 32 0#32)) _ (fun _ => rfl)
    fun i => by rw [eq_ix1 i]; exact hv _]

theorem gat0_apply (x : FVec Ideal S4096x1024 .f32) (ia : IVec S8192 32)
    (hA : ∀ j : Fin 8192, 0 ≤ (ia (ix1 j)).toInt) (t : Fin 4096) (r : Fin 8192) :
    gat0 x ia (ix2 t r) = x (ix2 t (Cert.Logic.pos 1024 (by decide) (ia (ix1 r)))) := by
  unfold gat0
  rw [Cert.Logic.gather_cols (by decide) _ rfl rfl rfl rfl rfl rfl, startOf_apply _ ia hA]

theorem gateIn_apply (o : Nat) (h : S5x8192.Slices ![o, 0] S1x8192) (k : Fin 5) (hk : k.val = o)
    (x : FVec Ideal S4096x8192 .f32) (w : IVec S5x8192 32) (hw : ∀ j : Fin 8192, 0 ≤ (w (ix2 k j)).toInt)
    (t : Fin 4096) (r : Fin 8192) :
    gateIn o h x w (ix2 t r) = x (ix2 t (Cert.Logic.pos 8192 (by decide) (w (ix2 k r)))) := by
  have hrow : ∀ j : Fin 8192, rowR o h w (ix1 j) = w (ix2 k j) := rowFlat_apply o w h k hk
  unfold gateIn
  rw [Cert.Logic.gather_cols (by decide) _ rfl rfl rfl rfl rfl rfl, startOf_apply _ _ (fun j => by rw [hrow]; exact hw j), hrow]

theorem coefCol_apply (o : Nat) (h : S8192x4.Slices ![0, o] S8192x1) (k : Fin 4) (hk : k.val = o)
    (C : FVec Ideal S8192x4 .f32) (t : Fin 4096) (r : Fin 8192) : coefCol o h C (ix2 t r) = C (ix2 r k) := by
  unfold coefCol
  rw [rowsOf_apply, colFlat_apply o C h k hk]

theorem blend_apply (C : FVec Ideal S8192x4 .f32) (a b : FVec Ideal S4096x8192 .f32) (t : Fin 4096) (r : Fin 8192) :
    blend C a b (ix2 t r)
      = Cert.Logic.mix (C (ix2 r 0)) (C (ix2 r 1)) (C (ix2 r 2)) (C (ix2 r 3)) (a (ix2 t r)) (b (ix2 t r)) := by
  unfold blend
  simp only [addf_apply, mulf_apply]
  rw [coefCol_apply 0 _ 0 rfl, coefCol_apply 1 _ 1 rfl, coefCol_apply 2 _ 2 rfl, coefCol_apply 3 _ 3 rfl]
  rfl

theorem layer0_apply (C : FVec Ideal S8192x4 .f32) (x : FVec Ideal S4096x1024 .f32) (ia ib : IVec S8192 32)
    (hA : ∀ j : Fin 8192, 0 ≤ (ia (ix1 j)).toInt) (hB : ∀ j : Fin 8192, 0 ≤ (ib (ix1 j)).toInt)
    (t : Fin 4096) (r : Fin 8192) :
    layer0 C x ia ib (ix2 t r)
      = Cert.Logic.mix (C (ix2 r 0)) (C (ix2 r 1)) (C (ix2 r 2)) (C (ix2 r 3))
          (x (ix2 t (Cert.Logic.pos 1024 (by decide) (ia (ix1 r)))))
          (x (ix2 t (Cert.Logic.pos 1024 (by decide) (ib (ix1 r))))) := by
  unfold layer0
  rw [blend_apply, gat0_apply x ia hA, gat0_apply x ib hB]

theorem layerOut_apply (o : Nat) (h : S5x8192.Slices ![o, 0] S1x8192) (k : Fin 5) (hk : k.val = o)
    (x : FVec Ideal S4096x8192 .f32) (wA wB : IVec S5x8192 32) (C : FVec Ideal S8192x4 .f32)
    (hA : ∀ j : Fin 8192, 0 ≤ (wA (ix2 k j)).toInt) (hB : ∀ j : Fin 8192, 0 ≤ (wB (ix2 k j)).toInt)
    (t : Fin 4096) (r : Fin 8192) :
    layerOut o h x wA wB C (ix2 t r) = Cert.Logic.layerNext (fun r' t' => x (ix2 t' r')) wA wB k C r t := by
  unfold layerOut
  rw [blend_apply, gateIn_apply o h k hk x wA hA, gateIn_apply o h k hk x wB hB]
  rfl

end Cert.ReferenceIdeal.LayerValue

end
-- ==== Proof.RLayer5.lean ====
import proofs.«416395_j89292370084186_2_alg».proof.Proof.RLayerGate
import proofs.«416395_j89292370084186_2_alg».proof.Proof.RefOps
import Idealize.ShloMosaic.Lib.StableHlo.Run

noncomputable section

namespace Cert.ReferenceIdeal.LayerValue

open Cert.ReferenceIdeal Cert.ReferenceIdeal.Gen Cert.ReferenceIdeal.Ops Idealize.ShloMosaic Idealize.ShloMosaic.ValueIdx
  Idealize.ShloMosaic.StableHlo

def coefR5 (w : FVec Ideal S6x8192x16 .f32) (gate : FVec Ideal S16x4 .f32) : FVec Ideal S8192x4 .f32 :=
  coefOf 5 slices_S6x8192x16_S1x8192x16_5_0_0 w gate

set_option maxHeartbeats 2000000 in
theorem r5_array (V : Valuation τ sig (Elt Ideal)) :
    (StableHlo.after L5 V (Proc.devRef .tc main_v328) : S4096x8192.Idx → EReal)
      = layerOut 4 slices_S5x8192_S1x8192_4_0 (V (Proc.devRef .tc main_v273))
          (V (Proc.devRef .tc main_arg6)) (V (Proc.devRef .tc main_arg7))
          (coefR5 (V (Proc.devRef .tc main_arg1)) (V (Proc.devRef .tc main_cst))) := by
  after_results_simp
  rfl

end Cert.ReferenceIdeal.LayerValue

end
-- ==== Proof.RLayer4.lean ====
import proofs.«416395_j89292370084186_2_alg».proof.Proof.RLayerGate
import proofs.«416395_j89292370084186_2_alg».proof.Proof.RefOps
import Idealize.ShloMosaic.Lib.StableHlo.Run

noncomputable section

namespace Cert.ReferenceIdeal.LayerValue

open Cert.ReferenceIdeal Cert.ReferenceIdeal.Gen Cert.ReferenceIdeal.Ops Idealize.ShloMosaic Idealize.ShloMosaic.ValueIdx
  Idealize.ShloMosaic.StableHlo

def coefR4 (w : FVec Ideal S6x8192x16 .f32) (gate : FVec Ideal S16x4 .f32) : FVec Ideal S8192x4 .f32 :=
  coefOf 4 slices_S6x8192x16_S1x8192x16_4_0_0 w gate

set_option maxHeartbeats 2000000 in
theorem r4_array (V : Valuation τ sig (Elt Ideal)) :
    (StableHlo.after L4 V (Proc.devRef .tc main_v273) : S4096x8192.Idx → EReal)
      = layerOut 3 slices_S5x8192_S1x8192_3_0 (V (Proc.devRef .tc main_v218))
          (V (Proc.devRef .tc main_arg6)) (V (Proc.devRef .tc main_arg7))
          (coefR4 (V (Proc.devRef .tc main_arg1)) (V (Proc.devRef .tc main_cst))) := by
  after_results_simp
  rfl

end Cert.ReferenceIdeal.LayerValue

end
-- ==== Proof.RLayer3.lean ====
import proofs.«416395_j89292370084186_2_alg».proof.Proof.RLayerGate
import proofs.«416395_j89292370084186_2_alg».proof.Proof.RefOps
import Idealize.ShloMosaic.Lib.StableHlo.Run

noncomputable section

namespace Cert.ReferenceIdeal.LayerValue

open Cert.ReferenceIdeal Cert.ReferenceIdeal.Gen Cert.ReferenceIdeal.Ops Idealize.ShloMosaic Idealize.ShloMosaic.ValueIdx
  Idealize.ShloMosaic.StableHlo

def coefR3 (w : FVec Ideal S6x8192x16 .f32) (gate : FVec Ideal S16x4 .f32) : FVec Ideal S8192x4 .f32 :=
  coefOf 3 slices_S6x8192x16_S1x8192x16_3_0_0 w gate

set_option maxHeartbeats 2000000 in
theorem r3_array (V : Valuation τ sig (Elt Ideal)) :
    (StableHlo.after L3 V (Proc.devRef .tc main_v218) : S4096x8192.Idx → EReal)
      = layerOut 2 slices_S5x8192_S1x8192_2_0 (V (Proc.devRef .tc main_v163))
          (V (Proc.devRef .tc main_arg6)) (V (Proc.devRef .tc main_arg7))
          (coefR3 (V (Proc.devRef .tc main_arg1)) (V (Proc.devRef .tc main_cst))) := by
  after_results_simp
  rfl

end Cert.ReferenceIdeal.LayerValue

end
-- ==== Proof.RLayer2.lean ====
import proofs.«416395_j89292370084186_2_alg».proof.Proof.RLayerGate
import proofs.«416395_j89292370084186_2_alg».proof.Proof.RefOps
import Idealize.ShloMosaic.Lib.StableHlo.Run

noncomputable section

namespace Cert.ReferenceIdeal.LayerValue

open Cert.ReferenceIdeal Cert.ReferenceIdeal.Gen Cert.ReferenceIdeal.Ops Idealize.ShloMosaic Idealize.ShloMosaic.ValueIdx
  Idealize.ShloMosaic.StableHlo

def coefR2 (w : FVec Ideal S6x8192x16 .f32) (gate : FVec Ideal S16x4 .f32) : FVec Ideal S8192x4 .f32 :=
  coefOf 2 slices_S6x8192x16_S1x8192x16_2_0_0 w gate

set_option maxHeartbeats 2000000 in
theorem r2_array (V : Valuation τ sig (Elt Ideal)) :
    (StableHlo.after L2 V (Proc.devRef .tc main_v163) : S4096x8192.Idx → EReal)
      = layerOut 1 slices_S5x8192_S1x8192_1_0 (V (Proc.devRef .tc main_v108))
          (V (Proc.devRef .tc main_arg6)) (V (Proc.devRef .tc main_arg7))
          (coefR2 (V (Proc.devRef .tc main_arg1)) (V (Proc.devRef .tc main_cst))) := by
  after_results_simp
  rfl

end Cert.ReferenceIdeal.LayerValue

end
-- ==== Proof.RLayer1.lean ====
import proofs.«416395_j89292370084186_2_alg».proof.Proof.RLayerGate
import proofs.«416395_j89292370084186_2_alg».proof.Proof.RefOps
import Idealize.ShloMosaic.Lib.StableHlo.Run

noncomputable section

namespace Cert.ReferenceIdeal.LayerValue

open Cert.ReferenceIdeal Cert.ReferenceIdeal.Gen Cert.ReferenceIdeal.Ops Idealize.ShloMosaic Idealize.ShloMosaic.ValueIdx
  Idealize.ShloMosaic.StableHlo

def coefR1 (w : FVec Ideal S6x8192x16 .f32) (gate : FVec Ideal S16x4 .f32) : FVec Ideal S8192x4 .f32 :=
  coefOf 1 slices_S6x8192x16_S1x8192x16_1_0_0 w gate

set_option maxHeartbeats 2000000 in
theorem r1_array (V : Valuation τ sig (Elt Ideal)) :
    (StableHlo.after L1 V (Proc.devRef .tc main_v108) : S4096x8192.Idx → EReal)
      = layerOut 0 slices_S5x8192_S1x8192_0_0 (V (Proc.devRef .tc main_v53))
          (V (Proc.devRef .tc main_arg6)) (V (Proc.devRef .tc main_arg7))
          (coefR1 (V (Proc.devRef .tc main_arg1)) (V (Proc.devRef .tc main_cst))) := by
  after_results_simp
  rfl

end Cert.ReferenceIdeal.LayerValue

end
-- ==== Proof.RLayer0A.lean ====
import proofs.«416395_j89292370084186_2_alg».proof.Proof.RefOps
import proofs.«416395_j89292370084186_2_alg».proof.Proof.Bin
import Idealize.ShloMosaic.Lib.StableHlo.Run
import Idealize.ShloMosaic.Lib.ValueIdx

noncomputable section

namespace Cert.ReferenceIdeal.LayerValue

open Cert.ReferenceIdeal Cert.ReferenceIdeal.Gen Cert.ReferenceIdeal.Ops Idealize.ShloMosaic Idealize.ShloMosaic.ValueIdx
  Idealize.ShloMosaic.StableHlo

variable (V : Valuation τ sig (Elt Ideal))

theorem rpre_bin (t : Fin 4096) (i : Fin 1024) :
    (StableHlo.after Lpre V (Proc.devRef .tc main_v2) : S4096x1024.Idx → EReal) (ix2 t i)
      = Cert.Logic.bin ((V (Proc.devRef .tc main_arg0) : S4096x1024.Idx → EReal) (ix2 t i)) := by
  have e : (StableHlo.after Lpre V (Proc.devRef .tc main_v2) : S4096x1024.Idx → EReal)
      = uitofp (F := Ideal) .f32 (cmpf .ogt (V (Proc.devRef .tc main_arg0) : FVec Ideal S4096x1024 .f32)
          (broadcastInDim S4096x1024 ![] bcast_S_S4096x1024 (constant (F := Ideal) S_ .f32 0x3F000000#32))) := by
    after_results <;> rfl
  rw [e]
  rfl

theorem rpre_cst :
    (StableHlo.after Lpre V (Proc.devRef .tc main_cst) : S16x4.Idx → EReal)
      = fun i => FloatOps.ofBits (F := Ideal) .f32 (lit0 (S16x4.rowMajor i)) := by
  after_results <;> rfl

end Cert.ReferenceIdeal.LayerValue

end
-- ==== Proof.RLayer0B.lean ====
import proofs.«416395_j89292370084186_2_alg».proof.Proof.RLayerGate
import proofs.«416395_j89292370084186_2_alg».proof.Proof.RefOps
import Idealize.ShloMosaic.Lib.StableHlo.Run

noncomputable section

namespace Cert.ReferenceIdeal.LayerValue

open Cert.ReferenceIdeal Cert.ReferenceIdeal.Gen Cert.ReferenceIdeal.Ops Idealize.ShloMosaic Idealize.ShloMosaic.ValueIdx
  Idealize.ShloMosaic.StableHlo

def coefR0 (w : FVec Ideal S6x8192x16 .f32) (gate : FVec Ideal S16x4 .f32) : FVec Ideal S8192x4 .f32 :=
  coefOf 0 slices_S6x8192x16_S1x8192x16_0_0_0 w gate

theorem r0_term (V : Valuation τ sig (Elt Ideal)) :
    (StableHlo.after L0 V (Proc.devRef .tc main_v53) : S4096x8192.Idx → EReal)
      = layer0 (coefR0 (V (Proc.devRef .tc main_arg1)) (V (Proc.devRef .tc main_cst)))
          (V (Proc.devRef .tc main_v2)) (V (Proc.devRef .tc main_arg4)) (V (Proc.devRef .tc main_arg5)) := by
  after_results_simp
  rfl

end Cert.ReferenceIdeal.LayerValue

end
-- ==== Proof.RLayer0C.lean ====
import proofs.«416395_j89292370084186_2_alg».proof.Proof.RefOps
import Idealize.ShloMosaic.Lib.StableHlo.Run
import Idealize.ShloMosaic.Lib.ValueIdx

noncomputable section

namespace Cert.ReferenceIdeal.LayerValue

open Cert.ReferenceIdeal Cert.ReferenceIdeal.Gen Cert.ReferenceIdeal.Ops Idealize.ShloMosaic Idealize.ShloMosaic.StableHlo

/-- Every statement of the line writes one reference, declared at position `n` or later. -/
def WritesFrom (n : Nat) (ops : List (HloOp τ sig (Elt Ideal))) : Prop :=
  ops.Forall fun op => ∃ y : Ref sig .tc, n ≤ y.idx.val ∧ op.writes = {Proc.devRef .tc y}

/-- Such a line leaves every reference declared before position `n` as it was. -/
theorem after_below {n : Nat} {ops : List (HloOp τ sig (Elt Ideal))} (h : WritesFrom n ops)
    (V : Valuation τ sig (Elt Ideal)) (r : Ref sig .tc) (hr : r.idx.val < n) :
    StableHlo.after ops V (Proc.devRef .tc r) = V (Proc.devRef .tc r) :=
  StableHlo.after_of_forall_not_mem ops V fun op hop hb => by
    obtain ⟨y, hy, e⟩ := List.forall_iff_forall_mem.mp h op hop
    rw [e, Finset.mem_singleton] at hb
    obtain rfl := Proc.devRef_injective _ hb
    omega

theorem from_pre : WritesFrom 8 (Lpre (F := Ideal)) := by
  simp only [WritesFrom, Lpre, List.Forall]
  repeat' apply And.intro
  all_goals exact ⟨_, by decide, rfl⟩

theorem from_L0 : WritesFrom 9 (L0 (F := Ideal)) := by
  simp only [WritesFrom, L0, List.Forall]
  repeat' apply And.intro
  all_goals exact ⟨_, by decide, rfl⟩

theorem from_L1 : WritesFrom 9 (L1 (F := Ideal)) := by
  simp only [WritesFrom, L1, List.Forall]
  repeat' apply And.intro
  all_goals exact ⟨_, by decide, rfl⟩

theorem from_L2 : WritesFrom 9 (L2 (F := Ideal)) := by
  simp only [WritesFrom, L2, List.Forall]
  repeat' apply And.intro
  all_goals exact ⟨_, by decide, rfl⟩

theorem from_L3 : WritesFrom 9 (L3 (F := Ideal)) := by
  simp only [WritesFrom, L3, List.Forall]
  repeat' apply And.intro
  all_goals exact ⟨_, by decide, rfl⟩

theorem from_L4 : WritesFrom 9 (L4 (F := Ideal)) := by
  simp only [WritesFrom, L4, List.Forall]
  repeat' apply And.intro
  all_goals exact ⟨_, by decide, rfl⟩

theorem from_L5 : WritesFrom 9 (L5 (F := Ideal)) := by
  simp only [WritesFrom, L5, List.Forall]
  repeat' apply And.intro
  all_goals exact ⟨_, by decide, rfl⟩

end Cert.ReferenceIdeal.LayerValue

end
-- ==== Proof.RChain0.lean ====
import proofs.«416395_j89292370084186_2_alg».proof.Proof.RLayer0A
import proofs.«416395_j89292370084186_2_alg».proof.Proof.RLayer0B
import proofs.«416395_j89292370084186_2_alg».proof.Proof.RLayer0C

noncomputable section

namespace Cert.ReferenceIdeal.Chain

open Cert.ReferenceIdeal Cert.ReferenceIdeal.Gen Cert.ReferenceIdeal.Ops Cert.ReferenceIdeal.LayerValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ)

abbrev gateTable : S16x4.Idx → EReal := fun i => FloatOps.ofBits (F := Ideal) .f32 (lit0 (S16x4.rowMajor i))

abbrev Upre (c : Dev nD) : Valuation τ sig (Elt Ideal) := StableHlo.after Lpre (StableHlo.launchContents m c)
abbrev U0 (c : Dev nD) : Valuation τ sig (Elt Ideal) := StableHlo.after L0 (Upre m c)
abbrev U1 (c : Dev nD) : Valuation τ sig (Elt Ideal) := StableHlo.after L1 (U0 m c)
abbrev U2 (c : Dev nD) : Valuation τ sig (Elt Ideal) := StableHlo.after L2 (U1 m c)
abbrev U3 (c : Dev nD) : Valuation τ sig (Elt Ideal) := StableHlo.after L3 (U2 m c)
abbrev U4 (c : Dev nD) : Valuation τ sig (Elt Ideal) := StableHlo.after L4 (U3 m c)
abbrev U5 (c : Dev nD) : Valuation τ sig (Elt Ideal) := StableHlo.after L5 (U4 m c)
abbrev Ufin (c : Dev nD) : Valuation τ sig (Elt Ideal) := StableHlo.after Lfin (U5 m c)

section Keep
variable (c : Dev nD) (r : Ref sig .tc)

theorem upre_arg (hr : r.idx.val < 8) : Upre m c (Proc.devRef .tc r) = m ((c.tc : Thread nD τ).loc r) :=
  after_below from_pre _ r hr
theorem upre_cst : (Upre m c (Proc.devRef .tc main_cst) : S16x4.Idx → EReal) = gateTable :=
  rpre_cst _
theorem upre_bin (t : Fin 4096) (i : Fin 1024) :
    (Upre m c (Proc.devRef .tc main_v2) : S4096x1024.Idx → EReal) (ix2 t i)
      = bin ((m ((c.tc : Thread nD τ).loc main_arg0) : S4096x1024.Idx → EReal) (ix2 t i)) :=
  rpre_bin _ t i

theorem u0_keep (hr : r.idx.val < 9) : U0 m c (Proc.devRef .tc r) = Upre m c (Proc.devRef .tc r) :=
  after_below from_L0 _ r hr
theorem u1_keep (hr : r.idx.val < 9) : U1 m c (Proc.devRef .tc r) = Upre m c (Proc.devRef .tc r) :=
  (after_below from_L1 _ r hr).trans (u0_keep m c r hr)
theorem u2_keep (hr : r.idx.val < 9) : U2 m c (Proc.devRef .tc r) = Upre m c (Proc.devRef .tc r) :=
  (after_below from_L2 _ r hr).trans (u1_keep m c r hr)
theorem u3_keep (hr : r.idx.val < 9) : U3 m c (Proc.devRef .tc r) = Upre m c (Proc.devRef .tc r) :=
  (after_below from_L3 _ r hr).trans (u2_keep m c r hr)
theorem u4_keep (hr : r.idx.val < 9) : U4 m c (Proc.devRef .tc r) = Upre m c (Proc.devRef .tc r) :=
  (after_below from_L4 _ r hr).trans (u3_keep m c r hr)
theorem u5_keep (hr : r.idx.val < 9) : U5 m c (Proc.devRef .tc r) = Upre m c (Proc.devRef .tc r) :=
  (after_below from_L5 _ r hr).trans (u4_keep m c r hr)

end Keep

theorem rlayer0 (c : Dev nD)
    (hA : ∀ j : Fin 8192, 0 ≤ ((m ((c.tc : Thread nD τ).loc main_arg4) : S8192.Idx → BitVec 32) (ix1 j)).toInt)
    (hB : ∀ j : Fin 8192, 0 ≤ ((m ((c.tc : Thread nD τ).loc main_arg5) : S8192.Idx → BitVec 32) (ix1 j)).toInt)
    (t : Fin 4096) (r : Fin 8192) :
    (U0 m c (Proc.devRef .tc main_v53) : S4096x8192.Idx → EReal) (ix2 t r)
      = layerFirst (m ((c.tc : Thread nD τ).loc main_arg0)) (m ((c.tc : Thread nD τ).loc main_arg4)) (m ((c.tc : Thread nD τ).loc main_arg5))
          (coefR0 (m ((c.tc : Thread nD τ).loc main_arg1)) gateTable) r t := by
  have h := congrFun (r0_term (Upre m c)) (ix2 t r)
  rw [upre_arg m c main_arg1 (by decide), upre_cst m c, upre_arg m c main_arg4 (by decide),
    upre_arg m c main_arg5 (by decide), layer0_apply _ _ _ _ hA hB, upre_bin, upre_bin] at h
  exact h

/-- A later layer, read off its array: the buffers it reads are the arguments as launched and the gate table. -/
theorem step (c : Dev nD) {V : Valuation τ sig (Elt Ideal)}
    (hV : ∀ r : Ref sig .tc, r.idx.val < 9 → V (Proc.devRef .tc r) = Upre m c (Proc.devRef .tc r))
    {o : Nat} {hs : S5x8192.Slices ![o, 0] S1x8192} {out x : FVec Ideal S4096x8192 .f32}
    {coef : FVec Ideal S6x8192x16 .f32 → FVec Ideal S16x4 .f32 → FVec Ideal S8192x4 .f32}
    (e : out = layerOut o hs x (V (Proc.devRef .tc main_arg6)) (V (Proc.devRef .tc main_arg7))
      (coef (V (Proc.devRef .tc main_arg1)) (V (Proc.devRef .tc main_cst))))
    (k : Fin 5) (hk : k.val = o)
    (hA : ∀ j : Fin 8192, 0 ≤ ((m ((c.tc : Thread nD τ).loc main_arg6) : S5x8192.Idx → BitVec 32) (ix2 k j)).toInt)
    (hB : ∀ j : Fin 8192, 0 ≤ ((m ((c.tc : Thread nD τ).loc main_arg7) : S5x8192.Idx → BitVec 32) (ix2 k j)).toInt)
    (t : Fin 4096) (r : Fin 8192) :
    out (ix2 t r) = layerNext (fun r' t' => x (ix2 t' r')) (m ((c.tc : Thread nD τ).loc main_arg6)) (m ((c.tc : Thread nD τ).loc main_arg7)) k
      (coef (m ((c.tc : Thread nD τ).loc main_arg1)) gateTable) r t := by
  rw [e, hV main_arg6 (by decide), hV main_arg7 (by decide), hV main_arg1 (by decide), hV main_cst (by decide),
    upre_arg m c main_arg6 (by decide), upre_arg m c main_arg7 (by decide), upre_arg m c main_arg1 (by decide),
    upre_cst m c]
  exact layerOut_apply o hs k hk x _ _ _ hA hB t r

end Cert.ReferenceIdeal.Chain

end
-- ==== Proof.RChain1.lean ====
import proofs.«416395_j89292370084186_2_alg».proof.Proof.RLayer1
import proofs.«416395_j89292370084186_2_alg».proof.Proof.RChain0

noncomputable section

namespace Cert.ReferenceIdeal.Chain

open Cert.ReferenceIdeal Cert.ReferenceIdeal.Gen Cert.ReferenceIdeal.Ops Cert.ReferenceIdeal.LayerValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ)

theorem rlayer1 (c : Dev nD)
    (hA : ∀ j : Fin 8192, 0 ≤ ((m ((c.tc : Thread nD τ).loc main_arg6) : S5x8192.Idx → BitVec 32) (ix2 (0 : Fin 5) j)).toInt)
    (hB : ∀ j : Fin 8192, 0 ≤ ((m ((c.tc : Thread nD τ).loc main_arg7) : S5x8192.Idx → BitVec 32) (ix2 (0 : Fin 5) j)).toInt)
    (t : Fin 4096) (r : Fin 8192) :
    (U1 m c (Proc.devRef .tc main_v108) : S4096x8192.Idx → EReal) (ix2 t r)
      = layerNext (fun r' t' => (U0 m c (Proc.devRef .tc main_v53) : S4096x8192.Idx → EReal) (ix2 t' r'))
          (m ((c.tc : Thread nD τ).loc main_arg6)) (m ((c.tc : Thread nD τ).loc main_arg7)) (0 : Fin 5)
          (coefR1 (m ((c.tc : Thread nD τ).loc main_arg1)) gateTable) r t :=
  step m c (u0_keep m c) (r1_array (U0 m c)) _ rfl hA hB t r

end Cert.ReferenceIdeal.Chain

end
-- ==== Proof.RChain2.lean ====
import proofs.«416395_j89292370084186_2_alg».proof.Proof.RLayer2
import proofs.«416395_j89292370084186_2_alg».proof.Proof.RChain1

noncomputable section

namespace Cert.ReferenceIdeal.Chain

open Cert.ReferenceIdeal Cert.ReferenceIdeal.Gen Cert.ReferenceIdeal.Ops Cert.ReferenceIdeal.LayerValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ)

theorem rlayer2 (c : Dev nD)
    (hA : ∀ j : Fin 8192, 0 ≤ ((m ((c.tc : Thread nD τ).loc main_arg6) : S5x8192.Idx → BitVec 32) (ix2 (1 : Fin 5) j)).toInt)
    (hB : ∀ j : Fin 8192, 0 ≤ ((m ((c.tc : Thread nD τ).loc main_arg7) : S5x8192.Idx → BitVec 32) (ix2 (1 : Fin 5) j)).toInt)
    (t : Fin 4096) (r : Fin 8192) :
    (U2 m c (Proc.devRef .tc main_v163) : S4096x8192.Idx → EReal) (ix2 t r)
      = layerNext (fun r' t' => (U1 m c (Proc.devRef .tc main_v108) : S4096x8192.Idx → EReal) (ix2 t' r'))
          (m ((c.tc : Thread nD τ).loc main_arg6)) (m ((c.tc : Thread nD τ).loc main_arg7)) (1 : Fin 5)
          (coefR2 (m ((c.tc : Thread nD τ).loc main_arg1)) gateTable) r t :=
  step m c (u1_keep m c) (r2_array (U1 m c)) _ rfl hA hB t r

end Cert.ReferenceIdeal.Chain

end
-- ==== Proof.RChain3.lean ====
import proofs.«416395_j89292370084186_2_alg».proof.Proof.RLayer3
import proofs.«416395_j89292370084186_2_alg».proof.Proof.RChain2

noncomputable section

namespace Cert.ReferenceIdeal.Chain

open Cert.ReferenceIdeal Cert.ReferenceIdeal.Gen Cert.ReferenceIdeal.Ops Cert.ReferenceIdeal.LayerValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ)

theorem rlayer3 (c : Dev nD)
    (hA : ∀ j : Fin 8192, 0 ≤ ((m ((c.tc : Thread nD τ).loc main_arg6) : S5x8192.Idx → BitVec 32) (ix2 (2 : Fin 5) j)).toInt)
    (hB : ∀ j : Fin 8192, 0 ≤ ((m ((c.tc : Thread nD τ).loc main_arg7) : S5x8192.Idx → BitVec 32) (ix2 (2 : Fin 5) j)).toInt)
    (t : Fin 4096) (r : Fin 8192) :
    (U3 m c (Proc.devRef .tc main_v218) : S4096x8192.Idx → EReal) (ix2 t r)
      = layerNext (fun r' t' => (U2 m c (Proc.devRef .tc main_v163) : S4096x8192.Idx → EReal) (ix2 t' r'))
          (m ((c.tc : Thread nD τ).loc main_arg6)) (m ((c.tc : Thread nD τ).loc main_arg7)) (2 : Fin 5)
          (coefR3 (m ((c.tc : Thread nD τ).loc main_arg1)) gateTable) r t :=
  step m c (u2_keep m c) (r3_array (U2 m c)) _ rfl hA hB t r

end Cert.ReferenceIdeal.Chain

end
-- ==== Proof.RChain4.lean ====
import proofs.«416395_j89292370084186_2_alg».proof.Proof.RLayer4
import proofs.«416395_j89292370084186_2_alg».proof.Proof.RChain3

noncomputable section

namespace Cert.ReferenceIdeal.Chain

open Cert.ReferenceIdeal Cert.ReferenceIdeal.Gen Cert.ReferenceIdeal.Ops Cert.ReferenceIdeal.LayerValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ)

theorem rlayer4 (c : Dev nD)
    (hA : ∀ j : Fin 8192, 0 ≤ ((m ((c.tc : Thread nD τ).loc main_arg6) : S5x8192.Idx → BitVec 32) (ix2 (3 : Fin 5) j)).toInt)
    (hB : ∀ j : Fin 8192, 0 ≤ ((m ((c.tc : Thread nD τ).loc main_arg7) : S5x8192.Idx → BitVec 32) (ix2 (3 : Fin 5) j)).toInt)
    (t : Fin 4096) (r : Fin 8192) :
    (U4 m c (Proc.devRef .tc main_v273) : S4096x8192.Idx → EReal) (ix2 t r)
      = layerNext (fun r' t' => (U3 m c (Proc.devRef .tc main_v218) : S4096x8192.Idx → EReal) (ix2 t' r'))
          (m ((c.tc : Thread nD τ).loc main_arg6)) (m ((c.tc : Thread nD τ).loc main_arg7)) (3 : Fin 5)
          (coefR4 (m ((c.tc : Thread nD τ).loc main_arg1)) gateTable) r t :=
  step m c (u3_keep m c) (r4_array (U3 m c)) _ rfl hA hB t r

end Cert.ReferenceIdeal.Chain

end
-- ==== Proof.RChain5.lean ====
import proofs.«416395_j89292370084186_2_alg».proof.Proof.RLayer5
import proofs.«416395_j89292370084186_2_alg».proof.Proof.RChain4

noncomputable section

namespace Cert.ReferenceIdeal.Chain

open Cert.ReferenceIdeal Cert.ReferenceIdeal.Gen Cert.ReferenceIdeal.Ops Cert.ReferenceIdeal.LayerValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ)

theorem rlayer5 (c : Dev nD)
    (hA : ∀ j : Fin 8192, 0 ≤ ((m ((c.tc : Thread nD τ).loc main_arg6) : S5x8192.Idx → BitVec 32) (ix2 (4 : Fin 5) j)).toInt)
    (hB : ∀ j : Fin 8192, 0 ≤ ((m ((c.tc : Thread nD τ).loc main_arg7) : S5x8192.Idx → BitVec 32) (ix2 (4 : Fin 5) j)).toInt)
    (t : Fin 4096) (r : Fin 8192) :
    (U5 m c (Proc.devRef .tc main_v328) : S4096x8192.Idx → EReal) (ix2 t r)
      = layerNext (fun r' t' => (U4 m c (Proc.devRef .tc main_v273) : S4096x8192.Idx → EReal) (ix2 t' r'))
          (m ((c.tc : Thread nD τ).loc main_arg6)) (m ((c.tc : Thread nD τ).loc main_arg7)) (4 : Fin 5)
          (coefR5 (m ((c.tc : Thread nD τ).loc main_arg1)) gateTable) r t :=
  step m c (u4_keep m c) (r5_array (U4 m c)) _ rfl hA hB t r

end Cert.ReferenceIdeal.Chain

end
-- ==== Proof.RChainHead.lean ====
import proofs.«416395_j89292370084186_2_alg».proof.Proof.RHead
import proofs.«416395_j89292370084186_2_alg».proof.Proof.RChain5

noncomputable section

namespace Cert.ReferenceIdeal.Chain

open Cert.ReferenceIdeal Cert.ReferenceIdeal.Gen Cert.ReferenceIdeal.Ops Cert.ReferenceIdeal.HeadValue
open Idealize.ShloMosaic Idealize.ShloMosaic.TcCoe Idealize.ShloMosaic.ValueIdx Idealize.SL.Sem Idealize.ShloMosaic.StableHlo
open Cert.Logic

variable (m : (ℓ : Loc nD τ sig) → Buf (Elt Ideal) ℓ)

theorem rhead (c : Dev nD) (t : Fin 4096) (o : Fin 8) :
    (Ufin m c (Proc.devRef .tc main_v337) : S4096x8.Idx → EReal) (ix2 t o)
      = (∑ g : Fin 8, ((∑ r : Fin 1024, (U5 m c (Proc.devRef .tc main_v328) : S4096x8192.Idx → EReal) (ix2 t (unit g r)) : EReal)
            * ((1 / 10 : ℝ) : EReal)) * (m ((c.tc : Thread nD τ).loc main_arg2) : S8x8.Idx → EReal) (ix2 o g))
        + (m ((c.tc : Thread nD τ).loc main_arg3) : S8.Idx → EReal) (ix1 o) := by
  have h := head_out (U5 m c) t o
  rw [u5_keep m c main_arg2 (by decide), u5_keep m c main_arg3 (by decide), upre_arg m c main_arg2 (by decide),
    upre_arg m c main_arg3 (by decide)] at h
  exact h

end Cert.ReferenceIdeal.Chain

end
-- ==== Proof.Values.lean ====
import proofs.«416395_j89292370084186_2_alg».proof.Defs
import proofs.«416395_j89292370084186_2_alg».proof.Proof.Gen.KernelIdeal
import proofs.«416395_j89292370084186_2_alg».proof.Proof.Gen.ReferenceIdeal
import proofs.«416395_j89292370084186_2_alg».proof.Proof.Gen.Pre_finite_inputs
import proofs.«416395_j89292370084186_2_alg».proof.Proof.PreDecode
import proofs.«416395_j89292370084186_2_alg».proof.Proof.Bridge
import proofs.«416395_j89292370084186_2_alg».proof.Proof.KChainHead
import proofs.«416395_j89292370084186_2_alg».proof.Proof.RChainHead

set_option maxRecDepth 16384

noncomputable section

namespace Cert.Proof.Values

open Idealize.ShloMosaic Idealize.ShloMosaic.TcCoe Idealize.ShloMosaic.ValueIdx Idealize.SL.Sem
open Cert.Logic

/-- Both programs make a layer's coefficient table by the same softmax and the same product with the gate table. -/
theorem coef0_eq (w : FVec Ideal Cert.KernelIdeal.S6x8192x16 .f32) :
    Cert.KernelIdeal.HostValue.coefK0 w = Cert.ReferenceIdeal.LayerValue.coefR0 w Cert.ReferenceIdeal.Chain.gateTable := by
  unfold Cert.KernelIdeal.HostValue.coefK0 Cert.ReferenceIdeal.LayerValue.coefR0
  rfl
theorem coef1_eq (w : FVec Ideal Cert.KernelIdeal.S6x8192x16 .f32) :
    Cert.KernelIdeal.HostValue.coefK1 w Cert.KernelIdeal.Chain.gateTable = Cert.ReferenceIdeal.LayerValue.coefR1 w Cert.ReferenceIdeal.Chain.gateTable := by
  unfold Cert.KernelIdeal.HostValue.coefK1 Cert.ReferenceIdeal.LayerValue.coefR1
  rfl
theorem coef2_eq (w : FVec Ideal Cert.KernelIdeal.S6x8192x16 .f32) :
    Cert.KernelIdeal.HostValue.coefK2 w Cert.KernelIdeal.Chain.gateTable = Cert.ReferenceIdeal.LayerValue.coefR2 w Cert.ReferenceIdeal.Chain.gateTable := by
  unfold Cert.KernelIdeal.HostValue.coefK2 Cert.ReferenceIdeal.LayerValue.coefR2
  rfl
theorem coef3_eq (w : FVec Ideal Cert.KernelIdeal.S6x8192x16 .f32) :
    Cert.KernelIdeal.HostValue.coefK3 w Cert.KernelIdeal.Chain.gateTable = Cert.ReferenceIdeal.LayerValue.coefR3 w Cert.ReferenceIdeal.Chain.gateTable := by
  unfold Cert.KernelIdeal.HostValue.coefK3 Cert.ReferenceIdeal.LayerValue.coefR3
  rfl
theorem coef4_eq (w : FVec Ideal Cert.KernelIdeal.S6x8192x16 .f32) :
    Cert.KernelIdeal.HostValue.coefK4 w Cert.KernelIdeal.Chain.gateTable = Cert.ReferenceIdeal.LayerValue.coefR4 w Cert.ReferenceIdeal.Chain.gateTable := by
  unfold Cert.KernelIdeal.HostValue.coefK4 Cert.ReferenceIdeal.LayerValue.coefR4
  rfl
theorem coef5_eq (w : FVec Ideal Cert.KernelIdeal.S6x8192x16 .f32) :
    Cert.KernelIdeal.HostValue.coefK5 w Cert.KernelIdeal.Chain.gateTable = Cert.ReferenceIdeal.LayerValue.coefR5 w Cert.ReferenceIdeal.Chain.gateTable := by
  unfold Cert.KernelIdeal.HostValue.coefK5 Cert.ReferenceIdeal.LayerValue.coefR5
  rfl

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- Layer by layer the kernel's hidden array is the transpose of the reference's; the heads then agree because products commute. -/
theorem result_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.ReferenceIdeal.Chain.Ufin m' c (Proc.devRef .tc Cert.ReferenceIdeal.main_v337) : Cert.ReferenceIdeal.S4096x8.Idx → EReal)
      = (Cert.KernelIdeal.Gen.W32 (F := Ideal) m ρ c (Proc.devRef .tc Cert.KernelIdeal.main_v152) : Cert.KernelIdeal.S4096x8.Idx → EReal) := by
  obtain ⟨r4, r5, r6, r7⟩ := idx_ranges _ _ _ _ _ _ _ _ hpre
  have e0 : (fun (r : Fin 8192) (t : Fin 4096) => (Cert.KernelIdeal.Gen.W4 (F := Ideal) m ρ c (Proc.devRef .tc Cert.KernelIdeal.main_v24) : Cert.KernelIdeal.S8192x4096.Idx → EReal) (ix2 r t))
      = (fun (r : Fin 8192) (t : Fin 4096) => (Cert.ReferenceIdeal.Chain.U0 m' c (Proc.devRef .tc Cert.ReferenceIdeal.main_v53) : Cert.ReferenceIdeal.S4096x8192.Idx → EReal) (ix2 t r)) := by
    funext r t
    rw [Cert.KernelIdeal.Chain.layer0 m ρ c r t,
      Cert.ReferenceIdeal.Chain.rlayer0 m' c (fun j => by rw [a4]; exact (r4 (ix1 j)).1) (fun j => by rw [a5]; exact (r5 (ix1 j)).1) t r,
      a0, a1, a4, a5, coef0_eq]
  have e1 : (fun (r : Fin 8192) (t : Fin 4096) => (Cert.KernelIdeal.Gen.W9 (F := Ideal) m ρ c (Proc.devRef .tc Cert.KernelIdeal.main_v49) : Cert.KernelIdeal.S8192x4096.Idx → EReal) (ix2 r t))
      = (fun (r : Fin 8192) (t : Fin 4096) => (Cert.ReferenceIdeal.Chain.U1 m' c (Proc.devRef .tc Cert.ReferenceIdeal.main_v108) : Cert.ReferenceIdeal.S4096x8192.Idx → EReal) (ix2 t r)) := by
    funext r t
    rw [Cert.KernelIdeal.Chain.layer1 m ρ c r t,
      Cert.ReferenceIdeal.Chain.rlayer1 m' c (fun j => by rw [a6]; exact (r6 (ix2 (0 : Fin 5) j)).1) (fun j => by rw [a7]; exact (r7 (ix2 (0 : Fin 5) j)).1) t r,
      a1, a6, a7, coef1_eq, e0]
  have e2 : (fun (r : Fin 8192) (t : Fin 4096) => (Cert.KernelIdeal.Gen.W14 (F := Ideal) m ρ c (Proc.devRef .tc Cert.KernelIdeal.main_v74) : Cert.KernelIdeal.S8192x4096.Idx → EReal) (ix2 r t))
      = (fun (r : Fin 8192) (t : Fin 4096) => (Cert.ReferenceIdeal.Chain.U2 m' c (Proc.devRef .tc Cert.ReferenceIdeal.main_v163) : Cert.ReferenceIdeal.S4096x8192.Idx → EReal) (ix2 t r)) := by
    funext r t
    rw [Cert.KernelIdeal.Chain.layer2 m ρ c r t,
      Cert.ReferenceIdeal.Chain.rlayer2 m' c (fun j => by rw [a6]; exact (r6 (ix2 (1 : Fin 5) j)).1) (fun j => by rw [a7]; exact (r7 (ix2 (1 : Fin 5) j)).1) t r,
      a1, a6, a7, coef2_eq, e1]
  have e3 : (fun (r : Fin 8192) (t : Fin 4096) => (Cert.KernelIdeal.Gen.W19 (F := Ideal) m ρ c (Proc.devRef .tc Cert.KernelIdeal.main_v99) : Cert.KernelIdeal.S8192x4096.Idx → EReal) (ix2 r t))
      = (fun (r : Fin 8192) (t : Fin 4096) => (Cert.ReferenceIdeal.Chain.U3 m' c (Proc.devRef .tc Cert.ReferenceIdeal.main_v218) : Cert.ReferenceIdeal.S4096x8192.Idx → EReal) (ix2 t r)) := by
    funext r t
    rw [Cert.KernelIdeal.Chain.layer3 m ρ c r t,
      Cert.ReferenceIdeal.Chain.rlayer3 m' c (fun j => by rw [a6]; exact (r6 (ix2 (2 : Fin 5) j)).1) (fun j => by rw [a7]; exact (r7 (ix2 (2 : Fin 5) j)).1) t r,
      a1, a6, a7, coef3_eq, e2]
  have e4 : (fun (r : Fin 8192) (t : Fin 4096) => (Cert.KernelIdeal.Gen.W24 (F := Ideal) m ρ c (Proc.devRef .tc Cert.KernelIdeal.main_v124) : Cert.KernelIdeal.S8192x4096.Idx → EReal) (ix2 r t))
      = (fun (r : Fin 8192) (t : Fin 4096) => (Cert.ReferenceIdeal.Chain.U4 m' c (Proc.devRef .tc Cert.ReferenceIdeal.main_v273) : Cert.ReferenceIdeal.S4096x8192.Idx → EReal) (ix2 t r)) := by
    funext r t
    rw [Cert.KernelIdeal.Chain.layer4 m ρ c r t,
      Cert.ReferenceIdeal.Chain.rlayer4 m' c (fun j => by rw [a6]; exact (r6 (ix2 (3 : Fin 5) j)).1) (fun j => by rw [a7]; exact (r7 (ix2 (3 : Fin 5) j)).1) t r,
      a1, a6, a7, coef4_eq, e3]
  have e5 : (fun (r : Fin 8192) (t : Fin 4096) => (Cert.KernelIdeal.Gen.W29 (F := Ideal) m ρ c (Proc.devRef .tc Cert.KernelIdeal.main_v149) : Cert.KernelIdeal.S8192x4096.Idx → EReal) (ix2 r t))
      = (fun (r : Fin 8192) (t : Fin 4096) => (Cert.ReferenceIdeal.Chain.U5 m' c (Proc.devRef .tc Cert.ReferenceIdeal.main_v328) : Cert.ReferenceIdeal.S4096x8192.Idx → EReal) (ix2 t r)) := by
    funext r t
    rw [Cert.KernelIdeal.Chain.layer5 m ρ c r t,
      Cert.ReferenceIdeal.Chain.rlayer5 m' c (fun j => by rw [a6]; exact (r6 (ix2 (4 : Fin 5) j)).1) (fun j => by rw [a7]; exact (r7 (ix2 (4 : Fin 5) j)).1) t r,
      a1, a6, a7, coef5_eq, e4]
  funext i
  obtain ⟨t, o, rfl⟩ : ∃ (t : Fin 4096) (o : Fin 8), i = ix2 t o := ⟨i 0, i 1, eq_ix2 i⟩
  have hh : ∀ u : Fin 8192, (Cert.KernelIdeal.Gen.W29 (F := Ideal) m ρ c (Proc.devRef .tc Cert.KernelIdeal.main_v149) : Cert.KernelIdeal.S8192x4096.Idx → EReal) (ix2 u t)
      = (Cert.ReferenceIdeal.Chain.U5 m' c (Proc.devRef .tc Cert.ReferenceIdeal.main_v328) : Cert.ReferenceIdeal.S4096x8192.Idx → EReal) (ix2 t u) :=
    fun u => congrFun (congrFun e5 u) t
  rw [Cert.ReferenceIdeal.Chain.rhead m' c t o, Cert.KernelIdeal.Chain.head m ρ c t o, headK_comm, a2, a3]
  simp only [hh]

end Cert.Proof.Values

end
-- ==== Proof.lean ====
import proofs.«416395_j89292370084186_2_alg».proof.Defs
import proofs.«416395_j89292370084186_2_alg».proof.Proof.Gen.Kernel
import proofs.«416395_j89292370084186_2_alg».proof.Proof.Gen.Kernel.Frame
import proofs.«416395_j89292370084186_2_alg».proof.Proof.Gen.KernelIdeal
import proofs.«416395_j89292370084186_2_alg».proof.Proof.Gen.KernelIdeal.Frame
import proofs.«416395_j89292370084186_2_alg».proof.Proof.Gen.ReferenceIdeal
import proofs.«416395_j89292370084186_2_alg».proof.Proof.Gen.Pre_finite_inputs
import proofs.«416395_j89292370084186_2_alg».proof.Proof.KernelRun
import proofs.«416395_j89292370084186_2_alg».proof.Proof.RefRun
import proofs.«416395_j89292370084186_2_alg».proof.Proof.Values
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and no statement of it writes an argument. -/
theorem frame_reference : Cert.frame_ReferenceIdeal := fun m ρ _ =>
  (θ_run Cert.ReferenceIdeal.defs _ _).mono
    (fun _ h c => ⟨(h c Cert.ReferenceIdeal.main_arg0).trans (Cert.ReferenceIdeal.Run.run_arg m c _ (by decide)),
      (h c Cert.ReferenceIdeal.main_arg1).trans (Cert.ReferenceIdeal.Run.run_arg m c _ (by decide)),
      (h c Cert.ReferenceIdeal.main_arg2).trans (Cert.ReferenceIdeal.Run.run_arg m c _ (by decide)),
      (h c Cert.ReferenceIdeal.main_arg3).trans (Cert.ReferenceIdeal.Run.run_arg m c _ (by decide)),
      (h c Cert.ReferenceIdeal.main_arg4).trans (Cert.ReferenceIdeal.Run.run_arg m c _ (by decide)),
      (h c Cert.ReferenceIdeal.main_arg5).trans (Cert.ReferenceIdeal.Run.run_arg m c _ (by decide)),
      (h c Cert.ReferenceIdeal.main_arg6).trans (Cert.ReferenceIdeal.Run.run_arg m c _ (by decide)),
      (h c Cert.ReferenceIdeal.main_arg7).trans (Cert.ReferenceIdeal.Run.run_arg m c _ (by decide))⟩)
    (Cert.ReferenceIdeal.Run.run (F := Ideal) m ρ)

/-- Each occurrence of the kernel's tenth is the named rational 1/10. -/
theorem tenth : IdealRules.named_const.Statement Cert.KernelIdeal.κ "inv_10" .f32 0x3DCCCCCD#32 ((1 / 10 : ℝ) : EReal) :=
  IdealRules.named_const.statement Cert.KernelIdeal.κ "inv_10" .f32 0x3DCCCCCD#32 ((1 / 10 : ℝ) : EReal) rfl

theorem preserves : Cert.preserves_Kernel_KernelIdeal := ⟨tenth, tenth, tenth, tenth, tenth, tenth, tenth, tenth⟩

/-- Both idealized programs run and end with equal results. -/
theorem algebraic : Cert.algebraic_KernelIdeal_ReferenceIdeal := by
  intro m ρ m' ρ' hpre hagree
  refine ⟨fun c => Cert.KernelIdeal.Gen.W32 (F := Ideal) m ρ c (Proc.devRef .tc Cert.KernelIdeal.main_v152),
    Cert.KernelIdeal.Run.run_named (F := Ideal) m ρ, ?_⟩
  refine (θ_run Cert.ReferenceIdeal.defs _ _).mono (fun _ h c => ⟨(h c Cert.ReferenceIdeal.main_v337).trans ?_,
      (h c Cert.ReferenceIdeal.main_arg0).trans (Cert.ReferenceIdeal.Run.run_arg m' c _ (by decide)),
      (h c Cert.ReferenceIdeal.main_arg1).trans (Cert.ReferenceIdeal.Run.run_arg m' c _ (by decide)),
      (h c Cert.ReferenceIdeal.main_arg2).trans (Cert.ReferenceIdeal.Run.run_arg m' c _ (by decide)),
      (h c Cert.ReferenceIdeal.main_arg3).trans (Cert.ReferenceIdeal.Run.run_arg m' c _ (by decide)),
      (h c Cert.ReferenceIdeal.main_arg4).trans (Cert.ReferenceIdeal.Run.run_arg m' c _ (by decide)),
      (h c Cert.ReferenceIdeal.main_arg5).trans (Cert.ReferenceIdeal.Run.run_arg m' c _ (by decide)),
      (h c Cert.ReferenceIdeal.main_arg6).trans (Cert.ReferenceIdeal.Run.run_arg m' c _ (by decide)),
      (h c Cert.ReferenceIdeal.main_arg7).trans (Cert.ReferenceIdeal.Run.run_arg m' c _ (by decide))⟩)
    (Cert.ReferenceIdeal.Run.run (F := Ideal) m' ρ')
  obtain ⟨a0, a1, a2, a3, a4, a5, a6, a7⟩ := hagree c
  exact Cert.Proof.Values.result_eq m ρ m' c (hpre c) a0 a1 a2 a3 a4 a5 a6 a7

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
